-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x3200000 : Shape := ⟨2, ![2, 3200000]⟩
abbrev S3200000 : Shape := ⟨1, ![3200000]⟩
abbrev S200000 : Shape := ⟨1, ![200000]⟩
abbrev S28x64 : Shape := ⟨2, ![28, 64]⟩
abbrev S4x64 : Shape := ⟨2, ![4, 64]⟩
abbrev S4x64x64 : Shape := ⟨3, ![4, 64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S28x64 : S_.BroadcastsInDim S28x64 (![] : Fin 0 → Fin S28x64.rank)
  reducesTo_S28x64_S_d0_1 : S28x64.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg15 : FVec F S1 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg15
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg11 : FVec F S32 .f32) (main_arg12 : FVec F S32x16 .f32) (main_arg13 : FVec F S16 .f32) (main_arg14 : FVec F S16x1 .f32) (main_arg15 : FVec F S1 .f32) (main_v33 : IVec S_ 1) : IVec S_ 1 :=
  let main_v34 : FVec F S32 .f32 := Host.absf main_arg11
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x16 .f32 := Host.absf main_arg12
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg13
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x1 .f32 := Host.absf main_arg14
  let main_cst_18 : FVec F S_ .f32 := constant S_ .f32 0x7F800000#32
  let main_v50 : FVec F S16x1 .f32 := broadcastInDim S16x1 ![] bcast_S_S16x1 main_cst_18
  fn_part3 (F := F) main_arg15 main_v48 main_v49 main_v50

def fn_part1 {F : FTy → Type} [FloatOps F] (main_arg8 : FVec F S4x64x64 .f32) (main_arg9 : FVec F S4x64 .f32) (main_arg10 : FVec F S64x32 .f32) (main_arg11 : FVec F S32 .f32) (main_arg12 : FVec F S32x16 .f32) (main_arg13 : FVec F S16 .f32) (main_arg14 : FVec F S16x1 .f32) (main_arg15 : FVec F S1 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S4x64x64 .f32 := Host.absf main_arg8
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg9
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S64x32 .f32 := Host.absf main_arg10
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg11 main_arg12 main_arg13 main_arg14 main_arg15 main_v33

def fn {F : FTy → Type} [FloatOps F] (main_arg0 : IVec S200000x1 32) (main_arg1 : IVec S2x3200000 32) (main_arg2 : IVec S3200000 32) (main_arg3 : IVec S200000 32) (main_arg4 : FVec F S28x64 .f32) (main_arg5 : FVec F S4x64 .f32) (main_arg6 : FVec F S4x64x64 .f32) (main_arg7 : FVec F S4x64 .f32) (main_arg8 : FVec F S4x64x64 .f32) (main_arg9 : FVec F S4x64 .f32) (main_arg10 : FVec F S64x32 .f32) (main_arg11 : FVec F S32 .f32) (main_arg12 : FVec F S32x16 .f32) (main_arg13 : FVec F S16 .f32) (main_arg14 : FVec F S16x1 .f32) (main_arg15 : FVec F S1 .f32) : IVec S_ 1 :=
  let main_v0 : FVec F S28x64 .f32 := Host.absf main_arg4
  let main_cst : FVec F S_ .f32 := constant S_ .f32 0x7F800000#32
  let main_v1 : FVec F S28x64 .f32 := broadcastInDim S28x64 ![] bcast_S_S28x64 main_cst
  let main_v2 : IVec S28x64 1 := cmpf .olt main_v0 main_v1
  let main_c : IVec S_ 1 := constantI S_ 1 1#1
  let main_v3 : IVec S_ 1 := (fun x v => Host.reduce IntOp.andi x v reducesTo_S28x64_S_d0_1 h_S_) main_v2 main_c
  let main_v4 : FVec F S4x64 .f32 := Host.absf main_arg5
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S4x64x64 .f32 := Host.absf main_arg6
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S4x64 .f32 := Host.absf main_arg7
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg8 main_arg9 main_arg10 main_arg11 main_arg12 main_arg13 main_arg14 main_arg15 main_v13 main_v16
-- ==== Kernel.lean ====
abbrev S200000x1 : Shape := ⟨2, ![200000, 1]⟩
abbrev S2x3200000 : Shape := ⟨2, ![2, 3200000]⟩
abbrev S3200000 : Shape := ⟨1, ![3200000]⟩
abbrev S200000 : Shape := ⟨1, ![200000]⟩
abbrev S28x64 : Shape := ⟨2, ![28, 64]⟩
abbrev S4x64 : Shape := ⟨2, ![4, 64]⟩
abbrev S4x64x64 : Shape := ⟨3, ![4, 64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩
abbrev S200000x64 : Shape := ⟨2, ![200000, 64]⟩
abbrev S1x3200000 : Shape := ⟨2, ![1, 3200000]⟩
abbrev S3200000x1 : Shape := ⟨2, ![3200000, 1]⟩
abbrev S3200000x64 : Shape := ⟨2, ![3200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S1x32 : Shape := ⟨2, ![1, 32]⟩
abbrev S1x16 : Shape := ⟨2, ![1, 16]⟩
abbrev S1x1 : Shape := ⟨2, ![1, 1]⟩
abbrev S1024x1 : Shape := ⟨2, ![1024, 1]⟩
abbrev S4000x64 : Shape := ⟨2, ![4000, 64]⟩
abbrev S4000x1 : Shape := ⟨2, ![4000, 1]⟩
abbrev S1024x64 : Shape := ⟨2, ![1024, 64]⟩
abbrev S4000x1024 : Shape := ⟨2, ![4000, 1024]⟩
abbrev S1024x32 : Shape := ⟨2, ![1024, 32]⟩
abbrev S1024x16 : Shape := ⟨2, ![1024, 16]⟩

abbrev nBuf : Space → Nat
  | .hbm => 131
  | .vmem => 52
  | .smem => 0
  | _ => 0

abbrev hbmTy0_0 (i : Nat) : BufTy := match i % 128 with
  | 0 => ⟨S200000x1, .i32⟩
  | 1 => ⟨S2x3200000, .i32⟩
  | 2 => ⟨S3200000, .i32⟩
  | 3 => ⟨S200000, .i32⟩
  | 4 => ⟨S28x64, .f32⟩
  | 5 => ⟨S4x64, .f32⟩
  | 6 => ⟨S4x64x64, .f32⟩
  | 7 => ⟨S4x64, .f32⟩
  | 8 => ⟨S4x64x64, .f32⟩
  | 9 => ⟨S4x64, .f32⟩
  | 10 => ⟨S64x32, .f32⟩
  | 11 => ⟨S32, .f32⟩
  | 12 => ⟨S32x16, .f32⟩
  | 13 => ⟨S16, .f32⟩
  | 14 => ⟨S16x1, .f32⟩
  | 15 => ⟨S1, .f32⟩
  | 16 => ⟨S200000, .i32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000x64, .f32⟩
  | 26 => ⟨S1x3200000, .i32⟩
  | 27 => ⟨S3200000, .i32⟩
  | 28 => ⟨S1x3200000, .i32⟩
  | 29 => ⟨S3200000, .i32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000x64, .f32⟩
  | 39 => ⟨S_, .f32⟩
  | 40 => ⟨S200000x64, .f32⟩
  | 41 => ⟨S3200000x1, .i32⟩
  | 42 => ⟨S200000x64, .f32⟩
  | 43 => ⟨S1x64x64, .f32⟩
  | 44 => ⟨S64x64, .f32⟩
  | 45 => ⟨S1x64, .f32⟩
  | 46 => ⟨S64, .f32⟩
  | 47 => ⟨S1x64x64, .f32⟩
  | 48 => ⟨S64x64, .f32⟩
  | 49 => ⟨S1x64, .f32⟩
  | 50 => ⟨S64, .f32⟩
  | 51 => ⟨S1x64, .f32⟩
  | 52 => ⟨S1x64, .f32⟩
  | 53 => ⟨S200000x64, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x64, .f32⟩
  | 63 => ⟨S_, .f32⟩
  | 64 => ⟨S200000x64, .f32⟩
  | 65 => ⟨S3200000x1, .i32⟩
  | 66 => ⟨S200000x64, .f32⟩
  | 67 => ⟨S1x64x64, .f32⟩
  | 68 => ⟨S64x64, .f32⟩
  | 69 => ⟨S1x64, .f32⟩
  | 70 => ⟨S64, .f32⟩
  | 71 => ⟨S1x64x64, .f32⟩
  | 72 => ⟨S64x64, .f32⟩
  | 73 => ⟨S1x64, .f32⟩
  | 74 => ⟨S64, .f32⟩
  | 75 => ⟨S1x64, .f32⟩
  | 76 => ⟨S1x64, .f32⟩
  | 77 => ⟨S200000x64, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000x64, .f32⟩
  | 87 => ⟨S_, .f32⟩
  | 88 => ⟨S200000x64, .f32⟩
  | 89 => ⟨S3200000x1, .i32⟩
  | 90 => ⟨S200000x64, .f32⟩
  | 91 => ⟨S1x64x64, .f32⟩
  | 92 => ⟨S64x64, .f32⟩
  | 93 => ⟨S1x64, .f32⟩
  | 94 => ⟨S64, .f32⟩
  | 95 => ⟨S1x64x64, .f32⟩
  | 96 => ⟨S64x64, .f32⟩
  | 97 => ⟨S1x64, .f32⟩
  | 98 => ⟨S64, .f32⟩
  | 99 => ⟨S1x64, .f32⟩
  | 100 => ⟨S1x64, .f32⟩
  | 101 => ⟨S200000x64, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000x64, .f32⟩
  | 111 => ⟨S_, .f32⟩
  | 112 => ⟨S200000x64, .f32⟩
  | 113 => ⟨S3200000x1, .i32⟩
  | 114 => ⟨S200000x64, .f32⟩
  | 115 => ⟨S1x64x64, .f32⟩
  | 116 => ⟨S64x64, .f32⟩
  | 117 => ⟨S1x64, .f32⟩
  | 118 => ⟨S64, .f32⟩
  | 119 => ⟨S1x64x64, .f32⟩
  | 120 => ⟨S64x64, .f32⟩
  | 121 => ⟨S1x64, .f32⟩
  | 122 => ⟨S64, .f32⟩
  | 123 => ⟨S1x64, .f32⟩
  | 124 => ⟨S1x64, .f32⟩
  | 125 => ⟨S200000x64, .f32⟩
  | 126 => ⟨S200000x1, .i32⟩
  | 127 => ⟨S1x32, .f32⟩
  | _ => ⟨S200000x1, .i32⟩

abbrev hbmTy0_1 (i : Nat) : BufTy := match i % 128 with
  | 0 => ⟨S1x16, .f32⟩
  | 1 => ⟨S1x1, .f32⟩
  | 2 => ⟨S1024x1, .f32⟩
  | _ => ⟨S200000x1, .i32⟩

abbrev hbmTy (i : Nat) : BufTy := match i / 128 with
  | 0 => hbmTy0_0 i
  | 1 => hbmTy0_1 i
  | _ => ⟨S200000x1, .i32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S4000x64, .f32⟩
  | .local _ .vmem, ⟨41, _⟩ => ⟨S4000x64, .f32⟩
  | .local _ .vmem, ⟨42, _⟩ => ⟨S4000x1, .i32⟩
  | .local _ .vmem, ⟨43, _⟩ => ⟨S4000x1, .i32⟩
  | .local _ .vmem, ⟨44, _⟩ => ⟨S64x32, .f32⟩
  | .local _ .vmem, ⟨45, _⟩ => ⟨S1x32, .f32⟩
  | .local _ .vmem, ⟨46, _⟩ => ⟨S32x16, .f32⟩
  | .local _ .vmem, ⟨47, _⟩ => ⟨S1x16, .f32⟩
  | .local _ .vmem, ⟨48, _⟩ => ⟨S16x1, .f32⟩
  | .local _ .vmem, ⟨49, _⟩ => ⟨S1x1, .f32⟩
  | .local _ .vmem, ⟨50, _⟩ => ⟨S1024x1, .f32⟩
  | .local _ .vmem, ⟨51, _⟩ => ⟨S1024x64, .f32⟩
  | _, _ => ⟨S200000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_3 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_c_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_9 : Ref sig .tc := ⟨.hbm, 102, rfl⟩
abbrev main_v75 : Ref sig .tc := ⟨.hbm, 103, rfl⟩
abbrev main_v76 : Ref sig .tc := ⟨.hbm, 104, rfl⟩
abbrev main_c_10 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_11 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc4_stg8_0 : Ref sig .tc := ⟨.vmem, 50, rfl⟩
abbrev cc4_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem7_0 : DmaSem sig := 49
abbrev cc4_sem8_0 : DmaSem sig := 50

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S16x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1024x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

class Facts₀ : Prop where
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S200000x64 : S_.BroadcastsInDim S200000x64 (![] : Fin 0 → Fin S200000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  shapeCasts_S200000_S200000x1 : S200000.ShapeCasts S200000x1
  shapeCasts_S32_S1x32 : S32.ShapeCasts S1x32
  shapeCasts_S16_S1x16 : S16.ShapeCasts S1x16
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  iota_S4000x1024_d1_w32 : S4000x1024.Iotas .tc 32 [1]
  broadcasts_S4000x1_S4000x1024 : S4000x1.Broadcasts S4000x1024
  natLt_1_32 : 1 < 32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  gather_S28x64_S200000x1_S200000x64_1_0_n_n_0_1_164_wf : GatherDims.WF S28x64 S200000x1 S200000x64 [1] [0] [] [0] [] 1 ![1, 64]
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S5000x64_S64x64_S5000x64_1_0_0_1_n_n_wf : DotDims.WF S5000x64 S64x64 S5000x64 [1] [0] [0] [1] [] []
  dot_S4000x1024_S4000x64_S1024x64_0_0_1_1_n_n_wf : DotDims.WF S4000x1024 S4000x64 S1024x64 [0] [0] [1] [1] [] []
  dot_S1024x64_S64x32_S1024x32_1_0_0_1_n_n_wf : DotDims.WF S1024x64 S64x32 S1024x32 [1] [0] [0] [1] [] []
  dot_S1024x32_S32x16_S1024x16_1_0_0_1_n_n_wf : DotDims.WF S1024x32 S32x16 S1024x16 [1] [0] [0] [1] [] []
  dot_S1024x16_S16x1_S1024x1_1_0_0_1_n_n_wf : DotDims.WF S1024x16 S16x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S200000x64.size a
  hwx0_1 : ∀ i : grid0.Coords, EltTy.bits .f32 = 32 ∨ (Rect.block (s := S200000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S200000x64.size a
  hwx0_6 : ∀ i : grid0.Coords, EltTy.bits .f32 = 32 ∨ (Rect.block (s := S200000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S200000x64.size a
  hwx1_6 : ∀ i : grid1.Coords, EltTy.bits .f32 = 32 ∨ (Rect.block (s := S200000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S200000x64.size a
  hwx2_1 : ∀ i : grid2.Coords, EltTy.bits .f32 = 32 ∨ (Rect.block (s := S200000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S200000x64.size a
  hwx2_6 : ∀ i : grid2.Coords, EltTy.bits .f32 = 32 ∨ (Rect.block (s := S200000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S200000x64.size a
  hwx3_1 : ∀ i : grid3.Coords, EltTy.bits .f32 = 32 ∨ (Rect.block (s := S200000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S200000x64.size a
  hwx3_6 : ∀ i : grid3.Coords, EltTy.bits .f32 = 32 ∨ (Rect.block (s := S200000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S200000x64.size a
  hwx4_0 : ∀ i : grid4.Coords, EltTy.bits .f32 = 32 ∨ (Rect.block (s := S200000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S200000x1.size a
  hwx4_1 : ∀ i : grid4.Coords, EltTy.bits .i32 = 32 ∨ (Rect.block (s := S200000x1) S4000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x32.size a ≤ S64x32.size a
  hwx4_2 : ∀ i : grid4.Coords, EltTy.bits .f32 = 32 ∨ (Rect.block (s := S64x32) S64x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x16.size a ≤ S32x16.size a
  hwx4_4 : ∀ i : grid4.Coords, EltTy.bits .f32 = 32 ∨ (Rect.block (s := S32x16) S32x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x16.size a ≤ S1x16.size a
  hwx4_5 : ∀ i : grid4.Coords, EltTy.bits .f32 = 32 ∨ (Rect.block (s := S1x16) S1x16.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S16x1.size a ≤ S16x1.size a
  hwx4_6 : ∀ i : grid4.Coords, EltTy.bits .f32 = 32 ∨ (Rect.block (s := S16x1) S16x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1024x1.size a ≤ S1024x1.size a
  hwx4_8 : ∀ i : grid4.Coords, EltTy.bits .f32 = 32 ∨ (Rect.block (s := S1024x1) S1024x1.size (cc4_transform_8 i) (hinb4_8 i)).WholeWords (EltTy.packing .f32)

variable [Facts₀]

def gather_S28x64_S200000x1_S200000x64_1_0_n_n_0_1_164 : GatherDims S28x64 S200000x1 S200000x64 where
  offsetDims := [1]
  collapsedSliceDims := [0]
  operandBatchingDims := []
  startIndicesBatchingDims := []
  startIndexMap := [0]
  indexVectorDim := 1
  sliceSizes := ![1, 64]
  wf := gather_S28x64_S200000x1_S200000x64_1_0_n_n_0_1_164_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S4000x1024_S4000x64_S1024x64_0_0_1_1_n_n : DotDims S4000x1024 S4000x64 S1024x64 where
  lhsContracting := [0]
  rhsContracting := [0]
  lhsNonContracting := [1]
  rhsNonContracting := [1]
  lhsBatch := []
  rhsBatch := []
  wf := dot_S4000x1024_S4000x64_S1024x64_0_0_1_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

abbrev win0_0 : Pipeline.Window sig grid0 :=
  Pipeline.Window.ofSpec (Memref.whole main_v7) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v74) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v74) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v95) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S64x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S32x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98) S1x16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg14) S16x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v99) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v100) S1024x1.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun _ => false | 8 => fun i => !(k4_cond2 i == 1#1) | ⟨_ + 9, h⟩ => absurd h (Nat.not_lt.2 (Nat.le_add_left _ _))

class Facts : Prop extends Facts₀ where

variable [Facts]
-- ==== ReferenceIdeal.lean ====
abbrev S200000x1 : Shape := ⟨2, ![200000, 1]⟩
abbrev S2x3200000 : Shape := ⟨2, ![2, 3200000]⟩
abbrev S3200000 : Shape := ⟨1, ![3200000]⟩
abbrev S200000 : Shape := ⟨1, ![200000]⟩
abbrev S28x64 : Shape := ⟨2, ![28, 64]⟩
abbrev S4x64 : Shape := ⟨2, ![4, 64]⟩
abbrev S4x64x64 : Shape := ⟨3, ![4, 64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩
abbrev S200000x64 : Shape := ⟨2, ![200000, 64]⟩
abbrev S3200000x1 : Shape := ⟨2, ![3200000, 1]⟩
abbrev S3200000x64 : Shape := ⟨2, ![3200000, 64]⟩
abbrev S1x3200000 : Shape := ⟨2, ![1, 3200000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1024x64 : Shape := ⟨2, ![1024, 64]⟩
abbrev S1024x32 : Shape := ⟨2, ![1024, 32]⟩
abbrev S1x32 : Shape := ⟨2, ![1, 32]⟩
abbrev S1024x16 : Shape := ⟨2, ![1024, 16]⟩
abbrev S1x16 : Shape := ⟨2, ![1, 16]⟩
abbrev S1024x1 : Shape := ⟨2, ![1024, 1]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S200000x1, .i32⟩
  | 1 => ⟨S2x3200000, .i32⟩
  | 2 => ⟨S3200000, .i32⟩
  | 3 => ⟨S200000, .i32⟩
  | 4 => ⟨S28x64, .f32⟩
  | 5 => ⟨S4x64, .f32⟩
  | 6 => ⟨S4x64x64, .f32⟩
  | 7 => ⟨S4x64, .f32⟩
  | 8 => ⟨S4x64x64, .f32⟩
  | 9 => ⟨S4x64, .f32⟩
  | 10 => ⟨S64x32, .f32⟩
  | 11 => ⟨S32, .f32⟩
  | 12 => ⟨S32x16, .f32⟩
  | 13 => ⟨S16, .f32⟩
  | 14 => ⟨S16x1, .f32⟩
  | 15 => ⟨S1, .f32⟩
  | 16 => ⟨S200000, .i32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000x64, .f32⟩
  | 26 => ⟨S_, .i32⟩
  | 27 => ⟨S3200000, .i32⟩
  | 28 => ⟨S3200000, .i1⟩
  | 29 => ⟨S_, .i32⟩
  | 30 => ⟨S3200000, .i32⟩
  | 31 => ⟨S3200000, .i32⟩
  | 32 => ⟨S3200000, .i32⟩
  | 33 => ⟨S3200000x1, .i32⟩
  | 34 => ⟨S3200000x64, .f32⟩
  | 35 => ⟨S1x3200000, .i32⟩
  | 36 => ⟨S3200000, .i32⟩
  | 37 => ⟨S1x3200000, .i32⟩
  | 38 => ⟨S3200000, .i32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000x64, .f32⟩
  | 48 => ⟨S_, .f32⟩
  | 49 => ⟨S200000x64, .f32⟩
  | 50 => ⟨S3200000x1, .i32⟩
  | 51 => ⟨S200000x64, .f32⟩
  | 52 => ⟨S200000x64, .f32⟩
  | 53 => ⟨S1x64x64, .f32⟩
  | 54 => ⟨S64x64, .f32⟩
  | 55 => ⟨S200000x64, .f32⟩
  | 56 => ⟨S1x64, .f32⟩
  | 57 => ⟨S64, .f32⟩
  | 58 => ⟨S1x64, .f32⟩
  | 59 => ⟨S200000x64, .f32⟩
  | 60 => ⟨S200000x64, .f32⟩
  | 61 => ⟨S_, .f32⟩
  | 62 => ⟨S200000x64, .f32⟩
  | 63 => ⟨S200000x64, .f32⟩
  | 64 => ⟨S1x64x64, .f32⟩
  | 65 => ⟨S64x64, .f32⟩
  | 66 => ⟨S200000x64, .f32⟩
  | 67 => ⟨S1x64, .f32⟩
  | 68 => ⟨S64, .f32⟩
  | 69 => ⟨S1x64, .f32⟩
  | 70 => ⟨S200000x64, .f32⟩
  | 71 => ⟨S200000x64, .f32⟩
  | 72 => ⟨S_, .i32⟩
  | 73 => ⟨S3200000, .i32⟩
  | 74 => ⟨S3200000, .i1⟩
  | 75 => ⟨S_, .i32⟩
  | 76 => ⟨S3200000, .i32⟩
  | 77 => ⟨S3200000, .i32⟩
  | 78 => ⟨S3200000, .i32⟩
  | 79 => ⟨S3200000x1, .i32⟩
  | 80 => ⟨S3200000x64, .f32⟩
  | 81 => ⟨S_, .f32⟩
  | 82 => ⟨S200000x64, .f32⟩
  | 83 => ⟨S3200000x1, .i32⟩
  | 84 => ⟨S200000x64, .f32⟩
  | 85 => ⟨S200000x64, .f32⟩
  | 86 => ⟨S1x64x64, .f32⟩
  | 87 => ⟨S64x64, .f32⟩
  | 88 => ⟨S200000x64, .f32⟩
  | 89 => ⟨S1x64, .f32⟩
  | 90 => ⟨S64, .f32⟩
  | 91 => ⟨S1x64, .f32⟩
  | 92 => ⟨S200000x64, .f32⟩
  | 93 => ⟨S200000x64, .f32⟩
  | 94 => ⟨S_, .f32⟩
  | 95 => ⟨S200000x64, .f32⟩
  | 96 => ⟨S200000x64, .f32⟩
  | 97 => ⟨S1x64x64, .f32⟩
  | 98 => ⟨S64x64, .f32⟩
  | 99 => ⟨S200000x64, .f32⟩
  | 100 => ⟨S1x64, .f32⟩
  | 101 => ⟨S64, .f32⟩
  | 102 => ⟨S1x64, .f32⟩
  | 103 => ⟨S200000x64, .f32⟩
  | 104 => ⟨S200000x64, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000x64, .f32⟩
  | 114 => ⟨S_, .f32⟩
  | 115 => ⟨S200000x64, .f32⟩
  | 116 => ⟨S3200000x1, .i32⟩
  | 117 => ⟨S200000x64, .f32⟩
  | 118 => ⟨S200000x64, .f32⟩
  | 119 => ⟨S1x64x64, .f32⟩
  | 120 => ⟨S64x64, .f32⟩
  | 121 => ⟨S200000x64, .f32⟩
  | 122 => ⟨S1x64, .f32⟩
  | 123 => ⟨S64, .f32⟩
  | 124 => ⟨S1x64, .f32⟩
  | 125 => ⟨S200000x64, .f32⟩
  | 126 => ⟨S200000x64, .f32⟩
  | 127 => ⟨S_, .f32⟩
  | _ => ⟨S200000x1, .i32⟩

abbrev hbmTy0_1 (i : Nat) : BufTy := match i % 128 with
  | 0 => ⟨S200000x64, .f32⟩
  | 1 => ⟨S200000x64, .f32⟩
  | 2 => ⟨S1x64x64, .f32⟩
  | 3 => ⟨S64x64, .f32⟩
  | 4 => ⟨S200000x64, .f32⟩
  | 5 => ⟨S1x64, .f32⟩
  | 6 => ⟨S64, .f32⟩
  | 7 => ⟨S1x64, .f32⟩
  | 8 => ⟨S200000x64, .f32⟩
  | 9 => ⟨S200000x64, .f32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S3200000x64, .f32⟩
  | 19 => ⟨S_, .f32⟩
  | 20 => ⟨S200000x64, .f32⟩
  | 21 => ⟨S3200000x1, .i32⟩
  | 22 => ⟨S200000x64, .f32⟩
  | 23 => ⟨S200000x64, .f32⟩
  | 24 => ⟨S1x64x64, .f32⟩
  | 25 => ⟨S64x64, .f32⟩
  | 26 => ⟨S200000x64, .f32⟩
  | 27 => ⟨S1x64, .f32⟩
  | 28 => ⟨S64, .f32⟩
  | 29 => ⟨S1x64, .f32⟩
  | 30 => ⟨S200000x64, .f32⟩
  | 31 => ⟨S200000x64, .f32⟩
  | 32 => ⟨S_, .f32⟩
  | 33 => ⟨S200000x64, .f32⟩
  | 34 => ⟨S200000x64, .f32⟩
  | 35 => ⟨S1x64x64, .f32⟩
  | 36 => ⟨S64x64, .f32⟩
  | 37 => ⟨S200000x64, .f32⟩
  | 38 => ⟨S1x64, .f32⟩
  | 39 => ⟨S64, .f32⟩
  | 40 => ⟨S1x64, .f32⟩
  | 41 => ⟨S200000x64, .f32⟩
  | 42 => ⟨S200000x64, .f32⟩
  | 43 => ⟨S_, .f32⟩
  | 44 => ⟨S1024x64, .f32⟩
  | 45 => ⟨S200000x1, .i32⟩
  | 46 => ⟨S1024x64, .f32⟩
  | 47 => ⟨S1024x32, .f32⟩
  | 48 => ⟨S1x32, .f32⟩
  | 49 => ⟨S1024x32, .f32⟩
  | 50 => ⟨S1024x32, .f32⟩
  | 51 => ⟨S_, .f32⟩
  | 52 => ⟨S1024x32, .f32⟩
  | 53 => ⟨S1024x32, .f32⟩
  | 54 => ⟨S1024x16, .f32⟩
  | 55 => ⟨S1x16, .f32⟩
  | 56 => ⟨S1024x16, .f32⟩
  | 57 => ⟨S1024x16, .f32⟩
  | 58 => ⟨S_, .f32⟩
  | 59 => ⟨S1024x16, .f32⟩
  | 60 => ⟨S1024x16, .f32⟩
  | 61 => ⟨S1024x1, .f32⟩
  | 62 => ⟨S1x1, .f32⟩
  | 63 => ⟨S1024x1, .f32⟩
  | 64 => ⟨S1024x1, .f32⟩
  | _ => ⟨S200000x1, .i32⟩

abbrev hbmTy (i : Nat) : BufTy := match i / 128 with
  | 0 => hbmTy0_0 i
  | 1 => hbmTy0_1 i
  | _ => ⟨S200000x1, .i32⟩

abbrev bufTy : (tb : Table) → Fin (tcTables nBuf tb) → BufTy
  | .hbm, ⟨i, _⟩ => hbmTy i
  | _, _ => ⟨S200000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call0_cst : Ref sig .tc := ⟨.hbm, 61, rfl⟩
abbrev main_call0_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_5 : Ref sig .tc := ⟨.hbm, 72, rfl⟩
abbrev main_v47 : Ref sig .tc := ⟨.hbm, 73, rfl⟩
abbrev main_v48 : Ref sig .tc := ⟨.hbm, 74, rfl⟩
abbrev main_c_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call1_cst : Ref sig .tc := ⟨.hbm, 94, rfl⟩
abbrev main_call1_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_8 : Ref sig .tc := ⟨.hbm, 105, rfl⟩
abbrev main_v75 : Ref sig .tc := ⟨.hbm, 106, rfl⟩
abbrev main_v76 : Ref sig .tc := ⟨.hbm, 107, rfl⟩
abbrev main_c_9 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_10 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call2_cst : Ref sig .tc := ⟨.hbm, 127, rfl⟩
abbrev main_call2_v0 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_11 : Ref sig .tc := ⟨.hbm, 138, rfl⟩
abbrev main_v103 : Ref sig .tc := ⟨.hbm, 139, rfl⟩
abbrev main_v104 : Ref sig .tc := ⟨.hbm, 140, rfl⟩
abbrev main_c_12 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_13 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_call3_cst : Ref sig .tc := ⟨.hbm, 160, rfl⟩
abbrev main_call3_v0 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_14 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_call4_cst : Ref sig .tc := ⟨.hbm, 179, rfl⟩
abbrev main_call4_v0 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_call5_cst : Ref sig .tc := ⟨.hbm, 186, rfl⟩
abbrev main_call5_v0 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩

abbrev nD : Nat := 1
abbrev τ : Topo := Topo.v7x

variable {F : FTy → Type} [FloatOps F]

class Facts₀ : Prop where
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S200000x64 : S_.BroadcastsInDim S200000x64 (![] : Fin 0 → Fin S200000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S1024x64 : S_.BroadcastsInDim S1024x64 (![] : Fin 0 → Fin S1024x64.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  bcast_S_S1024x16 : S_.BroadcastsInDim S1024x16 (![] : Fin 0 → Fin S1024x16.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S28x64_S200000x1_S200000x64_1_0_n_n_0_1_164_wf : GatherDims.WF S28x64 S200000x1 S200000x64 [1] [0] [] [0] [] 1 ![1, 64]
  gather_S4x64_S3200000x1_S3200000x64_1_0_n_n_0_1_164_wf : GatherDims.WF S4x64 S3200000x1 S3200000x64 [1] [0] [] [0] [] 1 ![1, 64]
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S200000x64_S64x64_S200000x64_1_0_0_1_n_n_wf : DotDims.WF S200000x64 S64x64 S200000x64 [1] [0] [0] [1] [] []
  scatter_S1024x64_S200000x1_S200000x64_1_0_0_1_wf : ScatterDims.WF S1024x64 S200000x1 S200000x64 [1] [0] [0] 1
  dot_S1024x64_S64x32_S1024x32_1_0_0_1_n_n_wf : DotDims.WF S1024x64 S64x32 S1024x32 [1] [0] [0] [1] [] []
  dot_S1024x32_S32x16_S1024x16_1_0_0_1_n_n_wf : DotDims.WF S1024x32 S32x16 S1024x16 [1] [0] [0] [1] [] []
  dot_S1024x16_S16x1_S1024x1_1_0_0_1_n_n_wf : DotDims.WF S1024x16 S16x1 S1024x1 [1] [0] [0] [1] [] []

variable [Facts₀]

def gather_S28x64_S200000x1_S200000x64_1_0_n_n_0_1_164 : GatherDims S28x64 S200000x1 S200000x64 where
  offsetDims := [1]
  collapsedSliceDims := [0]
  operandBatchingDims := []
  startIndicesBatchingDims := []
  startIndexMap := [0]
  indexVectorDim := 1
  sliceSizes := ![1, 64]
  wf := gather_S28x64_S200000x1_S200000x64_1_0_n_n_0_1_164_wf
def gather_S4x64_S3200000x1_S3200000x64_1_0_n_n_0_1_164 : GatherDims S4x64 S3200000x1 S3200000x64 where
  offsetDims := [1]
  collapsedSliceDims := [0]
  operandBatchingDims := []
  startIndicesBatchingDims := []
  startIndexMap := [0]
  indexVectorDim := 1
  sliceSizes := ![1, 64]
  wf := gather_S4x64_S3200000x1_S3200000x64_1_0_n_n_0_1_164_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S1024x64_S200000x1_S200000x64_1_0_0_1 : ScatterDims S1024x64 S200000x1 S200000x64 where
  updateWindowDims := [1]
  insertedWindowDims := [0]
  scatterDimsToOperandDims := [0]
  indexVectorDim := 1
  wf := scatter_S1024x64_S200000x1_S200000x64_1_0_0_1_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

class Facts : Prop extends Facts₀ where

variable [Facts]
-- ==== Proof.KConvRegion0.lean ====
import proofs.«423572_j60988535604051_1_alg».proof.Proof.Gen.Kernel.Launch
import proofs.«423572_j60988535604051_1_alg».proof.Proof.Gen.Kernel.Skeleton
import proofs.«423572_j60988535604051_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rN0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

def out0_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rN0, k0_pay1 (View.ld x0 rN0) (View.ld x1 rN0) (View.ld x2 rW0) (View.ld x3 rB0) (View.ld x4 rW0) (View.ld x5 rB0)⟩]

theorem sound_kernel0 (c : Dev nD) (E : Set ℕ) (i : grid0.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S5000x64 .f32) (harg6 : arg6.IsWhole)
    (x0 x1 : Vec F S5000x64 .f32) (x2 : Vec F S64x64 .f32) (x3 : Vec F S1x64 .f32) (x4 : Vec F S64x64 .f32) (x5 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out0_6 x0 x1 x2 x3 x4 x5)) -∗ K ⟨⟩))
      ⊢ wp frame (wpE (defs₀ (F := F)) Variants.none c none) E (cc0__conv_layer_kernel i arg0 harg0 arg1 harg1 arg2 harg2 arg3 harg3 arg4 harg4 arg5 harg5 arg6 harg6) K := by
  simp only [cc0__conv_layer_kernel_eq_skeleton]; unfold cc0__conv_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled [⟨rN0, _⟩] S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = iblk0 V c 4 t := rfl
theorem after0_5 (c : Dev nD) (t : Fin cfg0.N) : (dat0 V c).after 5 t = iblk0 V c 5 t := rfl
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]) t d).trans
    (by unfold Dat.fetched Dat.blockOf iblk0; rw [A_eq0]; rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]) t d).trans
    (by unfold Dat.fetched Dat.blockOf iblk0; rw [A_eq0]; rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]) t d).trans
    (by unfold Dat.fetched Dat.blockOf iblk0; rw [A_eq0]; rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]) t d).trans
    (by unfold Dat.fetched Dat.blockOf iblk0; rw [A_eq0]; rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]) t d).trans
    (by unfold Dat.fetched Dat.blockOf iblk0; rw [A_eq0]; rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]) t d).trans
    (by unfold Dat.fetched Dat.blockOf iblk0; rw [A_eq0]; rfl)

theorem body_obligation0 (c : Dev nD) : BodyObligation (dat0 (F := F) V c) (defs₀ (F := F)) Variants.none () Set.univ := fun t => by
  rw [bigSep_W0, bigSep_W0]
  refine (show _ ⊢ wp frame (wpE (defs₀ (F := F)) Variants.none c none) Set.univ (bodyAt0 t) _ from ?_)
  unfold bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  iframe
  isplitl [H6]; · iexists _; iexact H6
  iintro ⟨H0, H1, H2, H3, H4, H5, H6⟩
  iframe

end Cert.Kernel.Hand

end
-- ==== Proof.KConvRegion1.lean ====
import proofs.«423572_j60988535604051_1_alg».proof.Proof.Gen.Kernel.Launch
import proofs.«423572_j60988535604051_1_alg».proof.Proof.Gen.Kernel.Skeleton
import proofs.«423572_j60988535604051_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rN1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

def out1_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rN1, k1_pay1 (View.ld x0 rN1) (View.ld x1 rN1) (View.ld x2 rW1) (View.ld x3 rB1) (View.ld x4 rW1) (View.ld x5 rB1)⟩]

theorem sound_kernel1 (c : Dev nD) (E : Set ℕ) (i : grid1.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S5000x64 .f32) (harg6 : arg6.IsWhole)
    (x0 x1 : Vec F S5000x64 .f32) (x2 : Vec F S64x64 .f32) (x3 : Vec F S1x64 .f32) (x4 : Vec F S64x64 .f32) (x5 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out1_6 x0 x1 x2 x3 x4 x5)) -∗ K ⟨⟩))
      ⊢ wp frame (wpE (defs₀ (F := F)) Variants.none c none) E (cc1__conv_layer_kernel i arg0 harg0 arg1 harg1 arg2 harg2 arg3 harg3 arg4 harg4 arg5 harg5 arg6 harg6) K := by
  simp only [cc1__conv_layer_kernel_eq_skeleton]; unfold cc1__conv_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled [⟨rN1, _⟩] S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) : (dat1 V c).after 5 t = iblk1 V c 5 t := rfl
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]) t d).trans
    (by unfold Dat.fetched Dat.blockOf iblk1; rw [A_eq1]; rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]) t d).trans
    (by unfold Dat.fetched Dat.blockOf iblk1; rw [A_eq1]; rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]) t d).trans
    (by unfold Dat.fetched Dat.blockOf iblk1; rw [A_eq1]; rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]) t d).trans
    (by unfold Dat.fetched Dat.blockOf iblk1; rw [A_eq1]; rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]) t d).trans
    (by unfold Dat.fetched Dat.blockOf iblk1; rw [A_eq1]; rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]) t d).trans
    (by unfold Dat.fetched Dat.blockOf iblk1; rw [A_eq1]; rfl)

theorem body_obligation1 (c : Dev nD) : BodyObligation (dat1 (F := F) V c) (defs₀ (F := F)) Variants.none () Set.univ := fun t => by
  rw [bigSep_W1, bigSep_W1]
  refine (show _ ⊢ wp frame (wpE (defs₀ (F := F)) Variants.none c none) Set.univ (bodyAt1 t) _ from ?_)
  unfold bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  iframe
  isplitl [H6]; · iexists _; iexact H6
  iintro ⟨H0, H1, H2, H3, H4, H5, H6⟩
  iframe

end Cert.Kernel.Hand

end
-- ==== Proof.KConvRegion2.lean ====
import proofs.«423572_j60988535604051_1_alg».proof.Proof.Gen.Kernel.Launch
import proofs.«423572_j60988535604051_1_alg».proof.Proof.Gen.Kernel.Skeleton
import proofs.«423572_j60988535604051_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rN2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

def out2_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rN2, k2_pay1 (View.ld x0 rN2) (View.ld x1 rN2) (View.ld x2 rW2) (View.ld x3 rB2) (View.ld x4 rW2) (View.ld x5 rB2)⟩]

theorem sound_kernel2 (c : Dev nD) (E : Set ℕ) (i : grid2.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S5000x64 .f32) (harg6 : arg6.IsWhole)
    (x0 x1 : Vec F S5000x64 .f32) (x2 : Vec F S64x64 .f32) (x3 : Vec F S1x64 .f32) (x4 : Vec F S64x64 .f32) (x5 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2__conv_layer_kernel i arg0 harg0 arg1 harg1 arg2 harg2 arg3 harg3 arg4 harg4 arg5 harg5 arg6 harg6) K := by
  simp only [cc2__conv_layer_kernel_eq_skeleton]; unfold cc2__conv_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled [⟨rN2, _⟩] S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = iblk2 V c 3 t := rfl
theorem after2_4 (c : Dev nD) (t : Fin cfg2.N) : (dat2 V c).after 4 t = iblk2 V c 4 t := rfl
theorem after2_5 (c : Dev nD) (t : Fin cfg2.N) : (dat2 V c).after 5 t = iblk2 V c 5 t := rfl
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]) t d).trans
    (by unfold Dat.fetched Dat.blockOf iblk2; rw [A_eq2]; rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]) t d).trans
    (by unfold Dat.fetched Dat.blockOf iblk2; rw [A_eq2]; rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]) t d).trans
    (by unfold Dat.fetched Dat.blockOf iblk2; rw [A_eq2]; rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]) t d).trans
    (by unfold Dat.fetched Dat.blockOf iblk2; rw [A_eq2]; rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]) t d).trans
    (by unfold Dat.fetched Dat.blockOf iblk2; rw [A_eq2]; rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]) t d).trans
    (by unfold Dat.fetched Dat.blockOf iblk2; rw [A_eq2]; rfl)

theorem body_obligation2 (c : Dev nD) : BodyObligation (dat2 (F := F) V c) (defs₀ (F := F)) Variants.none () Set.univ := fun t => by
  rw [bigSep_W2, bigSep_W2]
  refine (show _ ⊢ wp frame (wpE (defs₀ (F := F)) Variants.none c none) Set.univ (bodyAt2 t) _ from ?_)
  unfold bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe
  isplitl [H6]; · iexists _; iexact H6
  iintro ⟨H0, H1, H2, H3, H4, H5, H6⟩
  iframe

end Cert.Kernel.Hand

end
-- ==== Proof.KConvRegion3.lean ====
import proofs.«423572_j60988535604051_1_alg».proof.Proof.Gen.Kernel.Launch
import proofs.«423572_j60988535604051_1_alg».proof.Proof.Gen.Kernel.Skeleton
import proofs.«423572_j60988535604051_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rN3 : Rect S5000x64 := Rect.unit (s := S5000x64) ![0, 0] S5000x64.size inb_S5000x64_S5000x64_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0

def out3_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rN3, k3_pay1 (View.ld x0 rN3) (View.ld x1 rN3) (View.ld x2 rW3) (View.ld x3 rB3) (View.ld x4 rW3) (View.ld x5 rB3)⟩]

theorem sound_kernel3 (c : Dev nD) (E : Set ℕ) (i : grid3.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S5000x64 .f32) (harg6 : arg6.IsWhole)
    (x0 x1 : Vec F S5000x64 .f32) (x2 : Vec F S64x64 .f32) (x3 : Vec F S1x64 .f32) (x4 : Vec F S64x64 .f32) (x5 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out3_6 x0 x1 x2 x3 x4 x5)) -∗ K ⟨⟩))
      ⊢ wp frame (wpE (defs₀ (F := F)) Variants.none c none) E (cc3__conv_layer_kernel i arg0 harg0 arg1 harg1 arg2 harg2 arg3 harg3 arg4 harg4 arg5 harg5 arg6 harg6) K := by
  simp only [cc3__conv_layer_kernel_eq_skeleton]; unfold cc3__conv_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled [⟨rN3, _⟩] S5000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = iblk3 V c 3 t := rfl
theorem after3_4 (c : Dev nD) (t : Fin cfg3.N) : (dat3 V c).after 4 t = iblk3 V c 4 t := rfl
theorem after3_5 (c : Dev nD) (t : Fin cfg3.N) : (dat3 V c).after 5 t = iblk3 V c 5 t := rfl
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]) t d).trans
    (by unfold Dat.fetched Dat.blockOf iblk3; rw [A_eq3]; rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]) t d).trans
    (by unfold Dat.fetched Dat.blockOf iblk3; rw [A_eq3]; rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]) t d).trans
    (by unfold Dat.fetched Dat.blockOf iblk3; rw [A_eq3]; rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]) t d).trans
    (by unfold Dat.fetched Dat.blockOf iblk3; rw [A_eq3]; rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]) t d).trans
    (by unfold Dat.fetched Dat.blockOf iblk3; rw [A_eq3]; rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]) t d).trans
    (by unfold Dat.fetched Dat.blockOf iblk3; rw [A_eq3]; rfl)

theorem body_obligation3 (c : Dev nD) : BodyObligation (dat3 (F := F) V c) (defs₀ (F := F)) Variants.none () Set.univ := fun t => by
  rw [bigSep_W3, bigSep_W3]
  refine (show _ ⊢ wp frame (wpE (defs₀ (F := F)) Variants.none c none) Set.univ (bodyAt3 t) _ from ?_)
  unfold bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  iframe
  isplitl [H6]; · iexists _; iexact H6
  iintro ⟨H0, H1, H2, H3, H4, H5, H6⟩
  iframe

end Cert.Kernel.Hand

end
-- ==== Proof.KPoolRegion.lean ====
import proofs.«423572_j60988535604051_1_alg».proof.Proof.Gen.Kernel.Launch
import proofs.«423572_j60988535604051_1_alg».proof.Proof.Gen.Kernel.Skeleton
import proofs.«423572_j60988535604051_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private abbrev own (c : Dev nD) {sp : Space} {S : Shape} {e : EltTy} (m : Memref sig .tc sp S e) (x : S.Idx → Elt F e) : sProp 𝕄 :=
  owns (c : Thread nD τ) m fullShare x

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem off4_zero : (![0, 0] : Fin 2 → Nat) = fun _ => 0 := by
  funext a; fin_cases a <;> rfl

abbrev cond4_0 (i : grid4.Coords) : Prop := (Scalar.cmpi .ne (Scalar.extui (Scalar.cmpi .eq (BitVec.ofNat 32 (i 0).val) 0#32)) 0#32) = 1#1
abbrev cond4_1 (i : grid4.Coords) : Prop := k4_cond2 i = 1#1

theorem hcond4_0 : ∀ t : Fin grid4.N, cond4_0 (grid4.coords t) ↔ t.val = 0 := by decide +kernel

section
variable {κ : Kind} {sp : Space} {S : Shape} {e : EltTy} (v : View sig κ sp S e) {off : Fin S.rank → ℕ} (h : off = fun _ => 0)
  (inb : ∀ a, off a + S.size a ≤ S.size a) (f : v.ty.Contents (Elt F))
include h

-- The whole-shape rectangle covers every index, so the last store through it decides every element.
private theorem read_writes_whole (w : S.Idx → Elt F e) (L : List (View.Piece (Elt F) S e)) :
    v.read (Elt F) (v.writes (Elt F) f (⟨Rect.unit off S.size inb, w⟩ :: L)) = w :=
  (View.read_writes_eq_canon _ _ _ fun y => ⟨_, List.mem_cons_self, View.mem_set_unit_zero h inb y⟩).trans
    (View.canon_cons_unit_zero h inb w L)

-- Contents overwritten under a condition read back as the payload where it holds and as they were elsewhere.
private theorem readAt_zeroed (C : Prop) [Decidable C] (z : S.Idx → Elt F e) :
    View.readAt (Elt F) v (Rect.unit off S.size inb).toLoadRect (if _ : C then v.writes (Elt F) f [⟨Rect.unit off S.size inb, z⟩] else f)
      = if C then z else View.read (Elt F) v f := by
  by_cases hc : C
  · rw [dif_pos hc, if_pos hc]; exact (View.ld_unit_zero h inb _).trans (read_writes_whole v h inb f z [])
  · rw [dif_neg hc, if_neg hc]; exact View.ld_unit_zero h inb _

end

-- The control cases in one statement: the two conditions choose where the sum starts and whether the output is rewritten.
theorem sound_kernel4 (c : Dev nD) (E : Set ℕ) (i : grid4.Coords)
    (arg1 : Memref sig .tc .vmem S4000x64 .f32) (harg1 : arg1.IsWhole) (arg2 : Memref sig .tc .vmem S4000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x16 .f32) (harg5 : arg5.IsWhole) (arg6 : Memref sig .tc .vmem S1x16 .f32) (harg6 : arg6.IsWhole)
    (arg7 : Memref sig .tc .vmem S16x1 .f32) (harg7 : arg7.IsWhole) (arg8 : Memref sig .tc .vmem S1x1 .f32) (harg8 : arg8.IsWhole)
    (arg9 : Memref sig .tc .vmem S1024x1 .f32) (harg9 : arg9.IsWhole) (arg10 : Memref sig .tc .vmem S1024x64 .f32) (harg10 : arg10.IsWhole)
    (x0 : Vec F S4000x64 .f32) (x1 : Vec F S4000x1 .i32) (x2 : Vec F S64x32 .f32) (x3 : Vec F S1x32 .f32) (x4 : Vec F S32x16 .f32)
    (x5 : Vec F S1x16 .f32) (x6 : Vec F S16x1 .f32) (x7 : Vec F S1x1 .f32) (x8 : Vec F S1024x1 .f32) (xs : Vec F S1024x64 .f32)
    (K : PUnit → sProp 𝕄) :
    iprop(own c arg1 x0 ∗ own c arg2 x1 ∗ own c arg3 x2
        ∗ own c arg4 x3 ∗ own c arg5 x4 ∗ own c arg6 x5
        ∗ own c arg7 x6 ∗ own c arg8 x7
        ∗ own c arg9 x8 ∗ own c arg10 xs
        ∗ (iprop(own c arg1 x0 ∗ own c arg2 x1 ∗ own c arg3 x2
            ∗ own c arg4 x3 ∗ own c arg5 x4 ∗ own c arg6 x5
            ∗ own c arg7 x6 ∗ own c arg8 x7
            ∗ own c arg9 (if cond4_1 i then k4_pay3 (k4_pay2 x1 x0 (if cond4_0 i then k4_pay1 else xs)) x2 x3 x4 x5 x6 x7 else x8)
            ∗ own c arg10 (k4_pay2 x1 x0 (if cond4_0 i then k4_pay1 else xs))) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8 arg9 harg9 arg10 harg10) K := by
  simp only [cc4__pool_mlp_kernel_eq_skeleton]; unfold cc4__pool_mlp_kernel_skel own owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%fS, %hS, HS⟩, Hk⟩
  subst h0 h1 h2 h3 h4 h5 h6 h7 h8 hS
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  · iexists _; isplitr
    swap; · iexact H8
    ipureintro
    sl_unfold_words
    by_cases hc1 : cond4_1 i
    · rw [dif_pos hc1, if_pos hc1]
      refine (read_writes_whole _ off4_zero _ _ _ _).trans ?_
      congr 1
      · refine (View.readCov_unit_zero _ off4_zero _ _).trans ?_
        congr 1 <;> first | exact View.ld_unit_zero off4_zero _ _ | exact readAt_zeroed _ off4_zero _ _ _ _
      all_goals exact View.ld_unit_zero off4_zero _ _
    · rw [dif_neg hc1, if_neg hc1]
  iexists _; isplitr
  swap; · iexact HS
  ipureintro
  sl_unfold_words
  refine (read_writes_whole _ off4_zero _ _ _ _).trans ?_
  congr 1 <;> first | exact View.ld_unit_zero off4_zero _ _ | exact readAt_zeroed _ off4_zero _ _ _ _

def acc4 (c : Dev nD) : (n : ℕ) → n < cfg4.N → Vec F S1024x64 .f32
  | 0, hn => k4_pay2 (iblk4 V c 1 ⟨0, hn⟩) (iblk4 V c 0 ⟨0, hn⟩) (k4_pay1 (F := F))
  | n + 1, hn => k4_pay2 (iblk4 V c 1 ⟨n + 1, hn⟩) (iblk4 V c 0 ⟨n + 1, hn⟩) (acc4 c n (Nat.lt_of_succ_lt hn))

theorem acc4_zero (c : Dev nD) (hn : 0 < cfg4.N) :
    acc4 V c 0 hn = k4_pay2 (iblk4 V c 1 ⟨0, hn⟩) (iblk4 V c 0 ⟨0, hn⟩) (k4_pay1 (F := F)) := rfl
theorem acc4_succ (c : Dev nD) (n : ℕ) (hn : n + 1 < cfg4.N) :
    acc4 V c (n + 1) hn = k4_pay2 (iblk4 V c 1 ⟨n + 1, hn⟩) (iblk4 V c 0 ⟨n + 1, hn⟩) (acc4 V c n (Nat.lt_of_succ_lt hn)) := rfl

-- The recurrence of acc4 in the form one run of the body leaves it.
theorem acc4_step (c : Dev nD) (t : Fin cfg4.N) (xs : Vec F S1024x64 .f32)
    (hxs : t.val ≠ 0 → xs = acc4 V c (t.val - 1) (Nat.lt_of_le_of_lt (Nat.sub_le _ _) t.isLt)) :
    acc4 V c t.val t.isLt = k4_pay2 (iblk4 V c 1 t) (iblk4 V c 0 t) (if cond4_0 (grid4.coords t) then k4_pay1 else xs) := by
  obtain ⟨n, hn⟩ := t
  cases n with
  | zero => rw [if_pos ((hcond4_0 _).mpr rfl)]; rfl
  | succ n => rw [if_neg fun h => Nat.succ_ne_zero n ((hcond4_0 _).mp h), hxs (Nat.succ_ne_zero n)]; rfl

def outLast4 (c : Dev nD) (t : Fin cfg4.N) : Vec F S1024x1 .f32 :=
  k4_pay3 (acc4 V c t.val t.isLt) (iblk4 V c 2 t) (iblk4 V c 3 t) (iblk4 V c 4 t) (iblk4 V c 5 t) (iblk4 V c 6 t) (iblk4 V c 7 t)

theorem outLast4_eq (c : Dev nD) (t : Fin cfg4.N) :
    outLast4 V c t = k4_pay3 (acc4 V c t.val t.isLt) (iblk4 V c 2 t) (iblk4 V c 3 t) (iblk4 V c 4 t) (iblk4 V c 5 t) (iblk4 V c 6 t) (iblk4 V c 7 t) := rfl

abbrev scM4 : Memref sig .tc .vmem S1024x64 .f32 := Memref.whole cc4_scratch0

abbrev rest4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop((∃ d, own c scM4 d) ∗ rest4 (F := F) c) ∗ (∃ r, prngReg c r)) := by
  unfold Pipeline.ΦA; rw [scopedRest4_split]; simp only [own, scM4, owns_whole]; try rfl

def Phi4 (c : Dev nD) : (n : ℕ) → n ≤ cfg4.N → sProp 𝕄
  | 0, _ => Pipeline.ΦA spec4 c
  | n + 1, hn => iprop(iprop(own c scM4 (acc4 V c n hn) ∗ rest4 (F := F) c) ∗ (∃ r, prngReg c r))

-- Both shapes of Phi4 opened at once, so that a point needs no case split on being the first.
theorem Phi4_open (c : Dev nD) (n : ℕ) (h : n ≤ cfg4.N) :
    Phi4 V c n h ⊢ iprop(∃ xs, ⌜∀ hz : n ≠ 0, xs = acc4 V c (n - 1) (by omega)⌝
      ∗ iprop(own c scM4 xs ∗ rest4 (F := F) c) ∗ (∃ r, prngReg c r)) := by
  cases n with
  | zero =>
    simp only [Phi4, PhiA4_eq]
    iintro ⟨⟨⟨%d, HS⟩, Hr⟩, Hg⟩
    iexists d; isplitr; · ipureintro; exact fun h => absurd rfl h
    iframe
  | succ n =>
    simp only [Phi4]
    iintro ⟨⟨HS, Hr⟩, Hg⟩
    iexists acc4 V c n h; isplitr; · ipureintro; exact fun _ => rfl
    iframe

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => outLast4 V c t
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_8 (c : Dev nD) (t : Fin cfg4.N) : (dat4 V c).after 8 t = outLast4 V c t := by dsimp only [dat4]

theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t)
    ∧ (∀ d, (dat4 V c).before 3 t d = iblk4 V c 3 t) ∧ (∀ d, (dat4 V c).before 4 t d = iblk4 V c 4 t) ∧ (∀ d, (dat4 V c).before 5 t d = iblk4 V c 5 t)
    ∧ (∀ d, (dat4 V c).before 6 t d = iblk4 V c 6 t) ∧ (∀ d, (dat4 V c).before 7 t d = iblk4 V c 7 t) := by
  refine ⟨?_, ?_, ?_, ?_, ?_, ?_, ?_, ?_⟩ <;>
    exact fun d => ((dat4 V c).before_in_eq_fetched _ rfl (fun _ => rfl) (fun _ _ _ => rfl) (fun _ => rfl) t d).trans rfl

theorem live4_8 : ∀ t : Fin grid4.N, cond4_1 (grid4.coords t) → cfg4.idle 8 (grid4.coords t) = false := by decide +kernel
theorem idle4_8 : ∀ t : Fin grid4.N, ¬cond4_1 (grid4.coords t) → cfg4.idle 8 (grid4.coords t) = true ∧ (cfg4.win 8).flush t = false := by
  decide +kernel

-- Both shapes of window 8's post from one conditional value, chosen by the second condition.
theorem leaves4_8 (c : Dev nD) (t : Fin cfg4.N) (d) :
    own c (st4_8 t) (if cond4_1 (grid4.coords t) then outLast4 V c t else (dat4 V c).before 8 t d)
      ⊢ (dat4 V c).leavesExact 8 t := by
  by_cases h1 : cond4_1 (grid4.coords t)
  · rw [if_pos h1, show (dat4 V c).leavesExact 8 t = own c (st4_8 t) ((dat4 V c).after 8 t) from by
      unfold Dat.leavesExact; rw [live4_8 t h1], after4_8]
  · rw [if_neg h1, Dat.leavesExact_idle (dat4 V c) 8 t (idle4_8 t h1).1 (idle4_8 t h1).2]
    iintro H; iexists d; iexact H

theorem sound_body4 (c : Dev nD) (t : Fin cfg4.N) :
    iprop((dat4 V c).Φ t.castSucc ∗ (dat4 V c).owesAt () t.castSucc
      ∗ (∃ d, own c (st4_0 t) ((dat4 V c).before 0 t d))
      ∗ (∃ d, own c (st4_1 t) ((dat4 V c).before 1 t d))
      ∗ (∃ d, own c (st4_2 t) ((dat4 V c).before 2 t d))
      ∗ (∃ d, own c (st4_3 t) ((dat4 V c).before 3 t d))
      ∗ (∃ d, own c (st4_4 t) ((dat4 V c).before 4 t d))
      ∗ (∃ d, own c (st4_5 t) ((dat4 V c).before 5 t d))
      ∗ (∃ d, own c (st4_6 t) ((dat4 V c).before 6 t d))
      ∗ (∃ d, own c (st4_7 t) ((dat4 V c).before 7 t d))
      ∗ (∃ d, own c (st4_8 t) ((dat4 V c).before 8 t d)))
    ⊢ wp frame (wpE (defs₀ (F := F)) Variants.none c none) Set.univ (bodyAt4 t) fun _ =>
      iprop(iprop(iprop(own c scM4 (acc4 V c t.val t.isLt) ∗ rest4 (F := F) c) ∗ (∃ r, prngReg c r)) ∗ (dat4 V c).owesAt () t.castSucc
        ∗ own c (st4_0 t) (iblk4 V c 0 t)
        ∗ own c (st4_1 t) (iblk4 V c 1 t)
        ∗ own c (st4_2 t) (iblk4 V c 2 t)
        ∗ own c (st4_3 t) (iblk4 V c 3 t)
        ∗ own c (st4_4 t) (iblk4 V c 4 t)
        ∗ own c (st4_5 t) (iblk4 V c 5 t)
        ∗ own c (st4_6 t) (iblk4 V c 6 t)
        ∗ own c (st4_7 t) (iblk4 V c 7 t)
        ∗ (dat4 V c).leavesExact 8 t) := by
  unfold bodyAt4
  simp only [before4 V c t]
  refine (sep_mono_left (Phi4_open V c t.val (Nat.le_of_lt t.isLt))).trans ?_
  iintro ⟨⟨%xs, %hxs, ⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ (grid4.coords t)
    _ _ _ _ _ _ _ _ _ _ _ _ _ _ _ _ _ _ _ _ _ _ _ _ _ _ _ _ _ _ _)
  iframe H0 H1 H2 H3 H4 H5 H6 H7 H8 HS
  rw [← acc4_step V c t xs hxs, ← outLast4_eq]
  iintro ⟨H0, H1, H2, H3, H4, H5, H6, H7, H8, HS⟩
  iframe HS Hr Hg Ho H0 H1 H2 H3 H4 H5 H6 H7
  iapply (leaves4_8 V c t d8); iexact H8

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := by
  rw [PhiA4_eq]
  refine (Phi4_open V c _ (Nat.le_of_lt_succ (Fin.last cfg4.N).isLt)).trans ?_
  iintro ⟨%xs, -, ⟨HS, Hr⟩, Hg⟩
  iframe Hr Hg
  iexists _; iexact HS

end Cert.Kernel.Hand

end
-- ==== Proof.KRunAll.lean ====
import proofs.«423572_j60988535604051_1_alg».proof.Proof.Gen.Kernel.Regions
import proofs.«423572_j60988535604051_1_alg».proof.Proof.KConvRegion0
import proofs.«423572_j60988535604051_1_alg».proof.Proof.KConvRegion1
import proofs.«423572_j60988535604051_1_alg».proof.Proof.KConvRegion2
import proofs.«423572_j60988535604051_1_alg».proof.Proof.KConvRegion3
import proofs.«423572_j60988535604051_1_alg».proof.Proof.KPoolRegion

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b

abbrev W3 : Dev nD → Valuation τ sig (Elt F) := fun c => StableHlo.after hostOps1 (W2 m c)

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

abbrev W5 : Dev nD → Valuation τ sig (Elt F) := fun c => StableHlo.after hostOps2 (W4 m c)

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b

abbrev W7 : Dev nD → Valuation τ sig (Elt F) := fun c => StableHlo.after hostOps3 (W6 m c)

abbrev V7 : (c : Dev nD) → (b : Ref sig .tc) → Buf (Elt F) ((c : Thread nD τ).loc b) := fun c b => W7 m c b

def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b

abbrev W9 : Dev nD → Valuation τ sig (Elt F) := fun c => StableHlo.after hostOps4 (W8 m c)

abbrev V9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b

theorem W2_keep (c : Dev nD) (b : Ref sig .tc) (hw : b ∉ hostOps0_W) (ha : ∀ w, Pipeline.arrRef spec0 w ≠ b) :
    W2 m c (Proc.devRef .tc b) = W0 m c (Proc.devRef .tc b) :=
  (W2_of_ne m c b ha).trans (StableHlo.after_of_writes_sub hostOps0 _ hostOps0_writes hw)
theorem W4_keep (c : Dev nD) (b : Ref sig .tc) (hw : b ∉ hostOps1_W) (ha : ∀ w, Pipeline.arrRef spec1 w ≠ b) :
    W4 m c (Proc.devRef .tc b) = W2 m c (Proc.devRef .tc b) :=
  (W4_of_ne m c b ha).trans (StableHlo.after_of_writes_sub hostOps1 _ hostOps1_writes hw)
theorem W6_keep (c : Dev nD) (b : Ref sig .tc) (hw : b ∉ hostOps2_W) (ha : ∀ w, Pipeline.arrRef spec2 w ≠ b) :
    W6 m c (Proc.devRef .tc b) = W4 m c (Proc.devRef .tc b) :=
  (W6_of_ne m c b ha).trans (StableHlo.after_of_writes_sub hostOps2 _ hostOps2_writes hw)
theorem W8_keep (c : Dev nD) (b : Ref sig .tc) (hw : b ∉ hostOps3_W) (ha : ∀ w, Pipeline.arrRef spec3 w ≠ b) :
    W8 m c (Proc.devRef .tc b) = W6 m c (Proc.devRef .tc b) :=
  (W8_of_ne m c b ha).trans (StableHlo.after_of_writes_sub hostOps3 _ hostOps3_writes hw)
theorem W9_keep (c : Dev nD) (b : Ref sig .tc) (hw : b ∉ hostOps4_W) :
    W9 m c (Proc.devRef .tc b) = W8 m c (Proc.devRef .tc b) :=
  StableHlo.after_of_writes_sub hostOps4 _ hostOps4_writes hw
theorem W10_in (c : Dev nD) (w : Fin cfg4.W) (hin : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hin _).trans (A_eq4 (V9 m) c w))
theorem W10_keep (c : Dev nD) (b : Ref sig .tc)
    (ha : (∀ w, Pipeline.arrRef spec4 w ≠ b) ∨ ∃ w, (cfg4.win w).isOut = false ∧ Pipeline.arrRef spec4 w = b) :
    W10 m c (Proc.devRef .tc b) = W9 m c (Proc.devRef .tc b) := by
  rcases ha with ha | ⟨w, hin, rfl⟩
  · exact W10_of_ne m c b ha
  · exact W10_in m c w hin

abbrev argRefs : List (Ref sig .tc) := [main_arg0, main_arg1, main_arg2, main_arg3, main_arg4, main_arg5, main_arg6, main_arg7, main_arg8, main_arg9, main_arg10, main_arg11, main_arg12, main_arg13, main_arg14, main_arg15]

-- The arguments are read-only for the whole program.
theorem arg_free : ∀ b ∈ argRefs,
    (b ∉ hostOps0_W ∧ ∀ w, Pipeline.arrRef spec0 w ≠ b) ∧ (b ∉ hostOps1_W ∧ ∀ w, Pipeline.arrRef spec1 w ≠ b)
    ∧ (b ∉ hostOps2_W ∧ ∀ w, Pipeline.arrRef spec2 w ≠ b) ∧ (b ∉ hostOps3_W ∧ ∀ w, Pipeline.arrRef spec3 w ≠ b)
    ∧ b ∉ hostOps4_W ∧ ((∀ w, Pipeline.arrRef spec4 w ≠ b) ∨ ∃ w, (cfg4.win w).isOut = false ∧ Pipeline.arrRef spec4 w = b) := by
  decide

theorem W2_arg (c : Dev nD) (b : Ref sig .tc) (hb : b ∈ argRefs) : W2 m c (Proc.devRef .tc b) = m ((c : Thread nD τ).loc b) :=
  W2_keep m c b (arg_free b hb).1.1 (arg_free b hb).1.2
theorem W4_arg (c : Dev nD) (b : Ref sig .tc) (hb : b ∈ argRefs) : W4 m c (Proc.devRef .tc b) = m ((c : Thread nD τ).loc b) :=
  (W4_keep m c b (arg_free b hb).2.1.1 (arg_free b hb).2.1.2).trans (W2_arg m c b hb)
theorem W6_arg (c : Dev nD) (b : Ref sig .tc) (hb : b ∈ argRefs) : W6 m c (Proc.devRef .tc b) = m ((c : Thread nD τ).loc b) :=
  (W6_keep m c b (arg_free b hb).2.2.1.1 (arg_free b hb).2.2.1.2).trans (W4_arg m c b hb)
theorem W8_arg (c : Dev nD) (b : Ref sig .tc) (hb : b ∈ argRefs) : W8 m c (Proc.devRef .tc b) = m ((c : Thread nD τ).loc b) :=
  (W8_keep m c b (arg_free b hb).2.2.2.1.1 (arg_free b hb).2.2.2.1.2).trans (W6_arg m c b hb)
theorem W9_arg (c : Dev nD) (b : Ref sig .tc) (hb : b ∈ argRefs) : W9 m c (Proc.devRef .tc b) = m ((c : Thread nD τ).loc b) :=
  (W9_keep m c b (arg_free b hb).2.2.2.2.1).trans (W8_arg m c b hb)
theorem W10_arg (c : Dev nD) (b : Ref sig .tc) (hb : b ∈ argRefs) : W10 m c (Proc.devRef .tc b) = m ((c : Thread nD τ).loc b) :=
  (W10_keep m c b (arg_free b hb).2.2.2.2.2).trans (W9_arg m c b hb)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m c) ∗ ∃ r, prngReg c r)

set_option backward.isDefEq.respectTransparency.types false in

-- A region entered at valuation Wi and left at Wo: Wo has the region's arrays at their final contents and is Wi elsewhere.
def mkReg (p : Fin 5) (lf : Pipeline.LaunchFacts (nD := nD) (τ := τ) cfgs p) (Wi Wo : Dev nD → Valuation τ sig (Elt F))
    (hbody : ∀ c, Pipeline.BodyObligationLoose (pdats m p c) defs₀ 𝒱₀ () Set.univ)
    (harr : ∀ c w, Wo c (Proc.devRef .tc (Pipeline.arrRef (cfgs p).spec w)) = (pdats m p c).arrAt w (cfgs p).N)
    (hne : ∀ c (b : Ref sig .tc), (∀ w, Pipeline.arrRef (cfgs p).spec w ≠ b) → Wo c (Proc.devRef .tc b) = Wi c (Proc.devRef .tc b))
    (howed : ∀ c t, (pdats m p c).owed t = 0 := by exact fun _ _ => rfl)
    (hrec : ∀ c (x : SemLoc sig × Unit), x ∈ (pdats m p c).recorded 0 := by exact fun _ _ => trivial)
    (hq : ∀ c w, (pdats m p c).q w = fullShare := by exact fun _ _ => rfl)
    (hA : ∀ c w, (pdats m p c).A w = Wi c (Proc.devRef .tc (Pipeline.arrRef (cfgs p).spec w)) := by exact fun _ _ => rfl)
    (hΦ0 : ∀ c, Pipeline.ΦA (cfgs p).spec c ⊢ (pdats m p c).Φ 0 := by exact fun _ => .rfl)
    (hΦN : ∀ c, (pdats m p c).Φ (Fin.last _) ⊢ Pipeline.ΦA (cfgs p).spec c := by exact fun _ => .rfl)
    (post : Dev nD → sProp 𝕄 := fun c => iprop(StableHlo.held (c : Thread nD τ) (Pipeline.ucRefs τ sig) (Wo c) ∗ R c))
    (hpost : ∀ c : Dev nD, iprop(StableHlo.held (c : Thread nD τ) (Pipeline.ucRefs τ sig) (Wo c) ∗ R c) ⊢ post c := by exact fun _ => .rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun x _ => Or.inl (hrec c x)
      iexact HO
    isplitl [Hp]; · iexact Hp
    iexact Hrest
  hin c := by
    refine (show _ ⊢ Pipeline.ΦA (cfgs p).spec c from ?_).trans (hΦ0 c)
    unfold Pipeline.ΦA
    iintro ⟨Hp, -, Hr⟩
    isplitl [Hr]; · iexact Hr
    iexact Hp
  hout c := by
    refine (hΦN c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c b) (fun b => Wo c b) ((pdats m p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    iapply (hpost c)
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

def reg0 : Pipeline.RegionSeg (pcfgs (F := F)) adm (pdats m) () defs₀ 𝒱₀ L lv 0 :=
  mkReg m 0 launch0 (W1 m) (W2 m) (fun c => (body_obligation0 (V1 m) c).loose) (W2_arr m) (W2_of_ne m)

def reg1 : Pipeline.RegionSeg (pcfgs (F := F)) adm (pdats m) () defs₀ 𝒱₀ L lv 1 :=
  mkReg m 1 launch1 (W3 m) (W4 m) (fun c => (body_obligation1 (V3 m) c).loose) (W4_arr m) (W4_of_ne m)

def reg2 : Pipeline.RegionSeg (pcfgs (F := F)) adm (pdats m) () defs₀ 𝒱₀ L lv 2 :=
  mkReg m 2 launch2 (W5 m) (W6 m) (fun c => (body_obligation2 (V5 m) c).loose) (W6_arr m) (W6_of_ne m)

def reg3 : Pipeline.RegionSeg (pcfgs (F := F)) adm (pdats m) () defs₀ 𝒱₀ L lv 3 :=
  mkReg m 3 launch3 (W7 m) (W8 m) (fun c => (body_obligation3 (V7 m) c).loose) (W8_arr m) (W8_of_ne m)

def reg4 : Pipeline.RegionSeg (pcfgs (F := F)) adm (pdats m) () defs₀ 𝒱₀ L lv 4 :=
  mkReg m 4 launch4 (W9 m) (W10 m) (fun c => (body_obligation4 (V9 m) c).loose) (W10_arr m) (W10_of_ne m) (hΦ0 := hin4 (V9 m)) (hΦN := hout4 (V9 m))
    (post := fun c => iprop(Tₙ m c ∗ ∃ W, owes (c : Thread nD τ) (0 : CellTallies nD τ sig Unit) W)) (hpost := fun c => by
      iintro ⟨Hh, Hp, HO⟩
      isplitl [Hh Hp]
      · isplitl [Hh] <;> iassumption
      iexact HO)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]

theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

abbrev ArgsKept (c : Dev nD) (s : (ℓ : Loc nD τ sig) → Buf (Elt F) ℓ) : Prop :=
    s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6)
    ∧ s ((c.tc : Thread nD τ).loc main_arg7) = m ((c.tc : Thread nD τ).loc main_arg7)
    ∧ s ((c.tc : Thread nD τ).loc main_arg8) = m ((c.tc : Thread nD τ).loc main_arg8)
    ∧ s ((c.tc : Thread nD τ).loc main_arg9) = m ((c.tc : Thread nD τ).loc main_arg9)
    ∧ s ((c.tc : Thread nD τ).loc main_arg10) = m ((c.tc : Thread nD τ).loc main_arg10)
    ∧ s ((c.tc : Thread nD τ).loc main_arg11) = m ((c.tc : Thread nD τ).loc main_arg11)
    ∧ s ((c.tc : Thread nD τ).loc main_arg12) = m ((c.tc : Thread nD τ).loc main_arg12)
    ∧ s ((c.tc : Thread nD τ).loc main_arg13) = m ((c.tc : Thread nD τ).loc main_arg13)
    ∧ s ((c.tc : Thread nD τ).loc main_arg14) = m ((c.tc : Thread nD τ).loc main_arg14)
    ∧ s ((c.tc : Thread nD τ).loc main_arg15) = m ((c.tc : Thread nD τ).loc main_arg15)

theorem args_kept (c : Dev nD) (s : (ℓ : Loc nD τ sig) → Buf (Elt F) ℓ)
    (h : ∀ b ∈ Pipeline.ucRefs τ sig, s (((c : Thread nD τ)).1, b) = W10 m c b) : ArgsKept m c s :=
  have k (b : Ref sig .tc) (hb : b ∈ argRefs) (hs : ¬ (Proc.devRef .tc b : DevRef τ sig).isScoped) :
      s ((c.tc : Thread nD τ).loc b) = m ((c.tc : Thread nD τ).loc b) := (h _ (mem_uc b hs)).trans (W10_arg m c b hb)
  ⟨k main_arg0 (by decide) (by decide), k main_arg1 (by decide) (by decide), k main_arg2 (by decide) (by decide), k main_arg3 (by decide) (by decide),
    k main_arg4 (by decide) (by decide), k main_arg5 (by decide) (by decide), k main_arg6 (by decide) (by decide), k main_arg7 (by decide) (by decide),
    k main_arg8 (by decide) (by decide), k main_arg9 (by decide) (by decide), k main_arg10 (by decide) (by decide), k main_arg11 (by decide) (by decide),
    k main_arg12 (by decide) (by decide), k main_arg13 (by decide) (by decide), k main_arg14 (by decide) (by decide), k main_arg15 (by decide) (by decide)⟩

theorem frame (ρ : Dev nD → PrngReg) : θ_run defs (onTc (τ := τ) (main (F := F))) ⟨m, fun _ => 0, ρ⟩
    (fun r => ∀ c : Dev nD, ArgsKept m c r.2.mem) :=
  (θ_run defs _ _).mono (fun r h c => args_kept m c _ (h c)) (run_all m ρ)

end Cert.Kernel.Hand

end
-- ==== Proof.ConvRegion0.lean ====
import proofs.«423572_j60988535604051_1_alg».proof.Proof.Gen.KernelIdeal.Launch
import proofs.«423572_j60988535604051_1_alg».proof.Proof.Gen.KernelIdeal.Skeleton
import proofs.«423572_j60988535604051_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rN0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

def out0_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rN0, k0_pay1 (View.ld x0 rN0) (View.ld x1 rN0) (View.ld x2 rW0) (View.ld x3 rB0) (View.ld x4 rW0) (View.ld x5 rB0)⟩]

theorem sound_kernel0 (c : Dev nD) (E : Set ℕ) (i : grid0.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S5000x64 .f32) (harg6 : arg6.IsWhole)
    (x0 x1 : Vec F S5000x64 .f32) (x2 : Vec F S64x64 .f32) (x3 : Vec F S1x64 .f32) (x4 : Vec F S64x64 .f32) (x5 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out0_6 x0 x1 x2 x3 x4 x5)) -∗ K ⟨⟩))
      ⊢ wp frame (wpE (defs₀ (F := F)) Variants.none c none) E (cc0__conv_layer_kernel i arg0 harg0 arg1 harg1 arg2 harg2 arg3 harg3 arg4 harg4 arg5 harg5 arg6 harg6) K := by
  simp only [cc0__conv_layer_kernel_eq_skeleton]; unfold cc0__conv_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled [⟨rN0, _⟩] S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = iblk0 V c 4 t := rfl
theorem after0_5 (c : Dev nD) (t : Fin cfg0.N) : (dat0 V c).after 5 t = iblk0 V c 5 t := rfl
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]) t d).trans
    (by unfold Dat.fetched Dat.blockOf iblk0; rw [A_eq0]; rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]) t d).trans
    (by unfold Dat.fetched Dat.blockOf iblk0; rw [A_eq0]; rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]) t d).trans
    (by unfold Dat.fetched Dat.blockOf iblk0; rw [A_eq0]; rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]) t d).trans
    (by unfold Dat.fetched Dat.blockOf iblk0; rw [A_eq0]; rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]) t d).trans
    (by unfold Dat.fetched Dat.blockOf iblk0; rw [A_eq0]; rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]) t d).trans
    (by unfold Dat.fetched Dat.blockOf iblk0; rw [A_eq0]; rfl)

theorem body_obligation0 (c : Dev nD) : BodyObligation (dat0 (F := F) V c) (defs₀ (F := F)) Variants.none () Set.univ := fun t => by
  rw [bigSep_W0, bigSep_W0]
  refine (show _ ⊢ wp frame (wpE (defs₀ (F := F)) Variants.none c none) Set.univ (bodyAt0 t) _ from ?_)
  unfold bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  iframe
  isplitl [H6]; · iexists _; iexact H6
  iintro ⟨H0, H1, H2, H3, H4, H5, H6⟩
  iframe

end Cert.KernelIdeal.Hand

end
-- ==== Proof.ConvRegion1.lean ====
import proofs.«423572_j60988535604051_1_alg».proof.Proof.Gen.KernelIdeal.Launch
import proofs.«423572_j60988535604051_1_alg».proof.Proof.Gen.KernelIdeal.Skeleton
import proofs.«423572_j60988535604051_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rN1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

def out1_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rN1, k1_pay1 (View.ld x0 rN1) (View.ld x1 rN1) (View.ld x2 rW1) (View.ld x3 rB1) (View.ld x4 rW1) (View.ld x5 rB1)⟩]

theorem sound_kernel1 (c : Dev nD) (E : Set ℕ) (i : grid1.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S5000x64 .f32) (harg6 : arg6.IsWhole)
    (x0 x1 : Vec F S5000x64 .f32) (x2 : Vec F S64x64 .f32) (x3 : Vec F S1x64 .f32) (x4 : Vec F S64x64 .f32) (x5 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out1_6 x0 x1 x2 x3 x4 x5)) -∗ K ⟨⟩))
      ⊢ wp frame (wpE (defs₀ (F := F)) Variants.none c none) E (cc1__conv_layer_kernel i arg0 harg0 arg1 harg1 arg2 harg2 arg3 harg3 arg4 harg4 arg5 harg5 arg6 harg6) K := by
  simp only [cc1__conv_layer_kernel_eq_skeleton]; unfold cc1__conv_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled [⟨rN1, _⟩] S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) : (dat1 V c).after 5 t = iblk1 V c 5 t := rfl
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]) t d).trans
    (by unfold Dat.fetched Dat.blockOf iblk1; rw [A_eq1]; rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]) t d).trans
    (by unfold Dat.fetched Dat.blockOf iblk1; rw [A_eq1]; rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]) t d).trans
    (by unfold Dat.fetched Dat.blockOf iblk1; rw [A_eq1]; rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]) t d).trans
    (by unfold Dat.fetched Dat.blockOf iblk1; rw [A_eq1]; rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]) t d).trans
    (by unfold Dat.fetched Dat.blockOf iblk1; rw [A_eq1]; rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]) t d).trans
    (by unfold Dat.fetched Dat.blockOf iblk1; rw [A_eq1]; rfl)

theorem body_obligation1 (c : Dev nD) : BodyObligation (dat1 (F := F) V c) (defs₀ (F := F)) Variants.none () Set.univ := fun t => by
  rw [bigSep_W1, bigSep_W1]
  refine (show _ ⊢ wp frame (wpE (defs₀ (F := F)) Variants.none c none) Set.univ (bodyAt1 t) _ from ?_)
  unfold bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  iframe
  isplitl [H6]; · iexists _; iexact H6
  iintro ⟨H0, H1, H2, H3, H4, H5, H6⟩
  iframe

end Cert.KernelIdeal.Hand

end
-- ==== Proof.ConvRegion2.lean ====
import proofs.«423572_j60988535604051_1_alg».proof.Proof.Gen.KernelIdeal.Launch
import proofs.«423572_j60988535604051_1_alg».proof.Proof.Gen.KernelIdeal.Skeleton
import proofs.«423572_j60988535604051_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rN2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

def out2_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rN2, k2_pay1 (View.ld x0 rN2) (View.ld x1 rN2) (View.ld x2 rW2) (View.ld x3 rB2) (View.ld x4 rW2) (View.ld x5 rB2)⟩]

theorem sound_kernel2 (c : Dev nD) (E : Set ℕ) (i : grid2.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S5000x64 .f32) (harg6 : arg6.IsWhole)
    (x0 x1 : Vec F S5000x64 .f32) (x2 : Vec F S64x64 .f32) (x3 : Vec F S1x64 .f32) (x4 : Vec F S64x64 .f32) (x5 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2__conv_layer_kernel i arg0 harg0 arg1 harg1 arg2 harg2 arg3 harg3 arg4 harg4 arg5 harg5 arg6 harg6) K := by
  simp only [cc2__conv_layer_kernel_eq_skeleton]; unfold cc2__conv_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled [⟨rN2, _⟩] S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = iblk2 V c 3 t := rfl
theorem after2_4 (c : Dev nD) (t : Fin cfg2.N) : (dat2 V c).after 4 t = iblk2 V c 4 t := rfl
theorem after2_5 (c : Dev nD) (t : Fin cfg2.N) : (dat2 V c).after 5 t = iblk2 V c 5 t := rfl
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]) t d).trans
    (by unfold Dat.fetched Dat.blockOf iblk2; rw [A_eq2]; rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]) t d).trans
    (by unfold Dat.fetched Dat.blockOf iblk2; rw [A_eq2]; rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]) t d).trans
    (by unfold Dat.fetched Dat.blockOf iblk2; rw [A_eq2]; rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]) t d).trans
    (by unfold Dat.fetched Dat.blockOf iblk2; rw [A_eq2]; rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]) t d).trans
    (by unfold Dat.fetched Dat.blockOf iblk2; rw [A_eq2]; rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]) t d).trans
    (by unfold Dat.fetched Dat.blockOf iblk2; rw [A_eq2]; rfl)

theorem body_obligation2 (c : Dev nD) : BodyObligation (dat2 (F := F) V c) (defs₀ (F := F)) Variants.none () Set.univ := fun t => by
  rw [bigSep_W2, bigSep_W2]
  refine (show _ ⊢ wp frame (wpE (defs₀ (F := F)) Variants.none c none) Set.univ (bodyAt2 t) _ from ?_)
  unfold bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe
  isplitl [H6]; · iexists _; iexact H6
  iintro ⟨H0, H1, H2, H3, H4, H5, H6⟩
  iframe

end Cert.KernelIdeal.Hand

end
-- ==== Proof.ConvRegion3.lean ====
import proofs.«423572_j60988535604051_1_alg».proof.Proof.Gen.KernelIdeal.Launch
import proofs.«423572_j60988535604051_1_alg».proof.Proof.Gen.KernelIdeal.Skeleton
import proofs.«423572_j60988535604051_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rN3 : Rect S5000x64 := Rect.unit (s := S5000x64) ![0, 0] S5000x64.size inb_S5000x64_S5000x64_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0

def out3_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rN3, k3_pay1 (View.ld x0 rN3) (View.ld x1 rN3) (View.ld x2 rW3) (View.ld x3 rB3) (View.ld x4 rW3) (View.ld x5 rB3)⟩]

theorem sound_kernel3 (c : Dev nD) (E : Set ℕ) (i : grid3.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S5000x64 .f32) (harg6 : arg6.IsWhole)
    (x0 x1 : Vec F S5000x64 .f32) (x2 : Vec F S64x64 .f32) (x3 : Vec F S1x64 .f32) (x4 : Vec F S64x64 .f32) (x5 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out3_6 x0 x1 x2 x3 x4 x5)) -∗ K ⟨⟩))
      ⊢ wp frame (wpE (defs₀ (F := F)) Variants.none c none) E (cc3__conv_layer_kernel i arg0 harg0 arg1 harg1 arg2 harg2 arg3 harg3 arg4 harg4 arg5 harg5 arg6 harg6) K := by
  simp only [cc3__conv_layer_kernel_eq_skeleton]; unfold cc3__conv_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled [⟨rN3, _⟩] S5000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = iblk3 V c 3 t := rfl
theorem after3_4 (c : Dev nD) (t : Fin cfg3.N) : (dat3 V c).after 4 t = iblk3 V c 4 t := rfl
theorem after3_5 (c : Dev nD) (t : Fin cfg3.N) : (dat3 V c).after 5 t = iblk3 V c 5 t := rfl
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]) t d).trans
    (by unfold Dat.fetched Dat.blockOf iblk3; rw [A_eq3]; rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]) t d).trans
    (by unfold Dat.fetched Dat.blockOf iblk3; rw [A_eq3]; rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]) t d).trans
    (by unfold Dat.fetched Dat.blockOf iblk3; rw [A_eq3]; rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]) t d).trans
    (by unfold Dat.fetched Dat.blockOf iblk3; rw [A_eq3]; rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]) t d).trans
    (by unfold Dat.fetched Dat.blockOf iblk3; rw [A_eq3]; rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]) t d).trans
    (by unfold Dat.fetched Dat.blockOf iblk3; rw [A_eq3]; rfl)

theorem body_obligation3 (c : Dev nD) : BodyObligation (dat3 (F := F) V c) (defs₀ (F := F)) Variants.none () Set.univ := fun t => by
  rw [bigSep_W3, bigSep_W3]
  refine (show _ ⊢ wp frame (wpE (defs₀ (F := F)) Variants.none c none) Set.univ (bodyAt3 t) _ from ?_)
  unfold bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  iframe
  isplitl [H6]; · iexists _; iexact H6
  iintro ⟨H0, H1, H2, H3, H4, H5, H6⟩
  iframe

end Cert.KernelIdeal.Hand

end
-- ==== Proof.PoolRegion.lean ====
import proofs.«423572_j60988535604051_1_alg».proof.Proof.Gen.KernelIdeal.Launch
import proofs.«423572_j60988535604051_1_alg».proof.Proof.Gen.KernelIdeal.Skeleton
import proofs.«423572_j60988535604051_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private abbrev own (c : Dev nD) {sp : Space} {S : Shape} {e : EltTy} (m : Memref sig .tc sp S e) (x : S.Idx → Elt F e) : sProp 𝕄 :=
  owns (c : Thread nD τ) m fullShare x

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem off4_zero : (![0, 0] : Fin 2 → Nat) = fun _ => 0 := by
  funext a; fin_cases a <;> rfl

abbrev cond4_0 (i : grid4.Coords) : Prop := (Scalar.cmpi .ne (Scalar.extui (Scalar.cmpi .eq (BitVec.ofNat 32 (i 0).val) 0#32)) 0#32) = 1#1
abbrev cond4_1 (i : grid4.Coords) : Prop := k4_cond2 i = 1#1

theorem hcond4_0 : ∀ t : Fin grid4.N, cond4_0 (grid4.coords t) ↔ t.val = 0 := by decide +kernel

section
variable {κ : Kind} {sp : Space} {S : Shape} {e : EltTy} (v : View sig κ sp S e) {off : Fin S.rank → ℕ} (h : off = fun _ => 0)
  (inb : ∀ a, off a + S.size a ≤ S.size a) (f : v.ty.Contents (Elt F))
include h

-- The whole-shape rectangle covers every index, so the last store through it decides every element.
private theorem read_writes_whole (w : S.Idx → Elt F e) (L : List (View.Piece (Elt F) S e)) :
    v.read (Elt F) (v.writes (Elt F) f (⟨Rect.unit off S.size inb, w⟩ :: L)) = w :=
  (View.read_writes_eq_canon _ _ _ fun y => ⟨_, List.mem_cons_self, View.mem_set_unit_zero h inb y⟩).trans
    (View.canon_cons_unit_zero h inb w L)

-- Contents overwritten under a condition read back as the payload where it holds and as they were elsewhere.
private theorem readAt_zeroed (C : Prop) [Decidable C] (z : S.Idx → Elt F e) :
    View.readAt (Elt F) v (Rect.unit off S.size inb).toLoadRect (if _ : C then v.writes (Elt F) f [⟨Rect.unit off S.size inb, z⟩] else f)
      = if C then z else View.read (Elt F) v f := by
  by_cases hc : C
  · rw [dif_pos hc, if_pos hc]; exact (View.ld_unit_zero h inb _).trans (read_writes_whole v h inb f z [])
  · rw [dif_neg hc, if_neg hc]; exact View.ld_unit_zero h inb _

end

-- The control cases in one statement: the two conditions choose where the sum starts and whether the output is rewritten.
theorem sound_kernel4 (c : Dev nD) (E : Set ℕ) (i : grid4.Coords)
    (arg1 : Memref sig .tc .vmem S4000x64 .f32) (harg1 : arg1.IsWhole) (arg2 : Memref sig .tc .vmem S4000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x16 .f32) (harg5 : arg5.IsWhole) (arg6 : Memref sig .tc .vmem S1x16 .f32) (harg6 : arg6.IsWhole)
    (arg7 : Memref sig .tc .vmem S16x1 .f32) (harg7 : arg7.IsWhole) (arg8 : Memref sig .tc .vmem S1x1 .f32) (harg8 : arg8.IsWhole)
    (arg9 : Memref sig .tc .vmem S1024x1 .f32) (harg9 : arg9.IsWhole) (arg10 : Memref sig .tc .vmem S1024x64 .f32) (harg10 : arg10.IsWhole)
    (x0 : Vec F S4000x64 .f32) (x1 : Vec F S4000x1 .i32) (x2 : Vec F S64x32 .f32) (x3 : Vec F S1x32 .f32) (x4 : Vec F S32x16 .f32)
    (x5 : Vec F S1x16 .f32) (x6 : Vec F S16x1 .f32) (x7 : Vec F S1x1 .f32) (x8 : Vec F S1024x1 .f32) (xs : Vec F S1024x64 .f32)
    (K : PUnit → sProp 𝕄) :
    iprop(own c arg1 x0 ∗ own c arg2 x1 ∗ own c arg3 x2
        ∗ own c arg4 x3 ∗ own c arg5 x4 ∗ own c arg6 x5
        ∗ own c arg7 x6 ∗ own c arg8 x7
        ∗ own c arg9 x8 ∗ own c arg10 xs
        ∗ (iprop(own c arg1 x0 ∗ own c arg2 x1 ∗ own c arg3 x2
            ∗ own c arg4 x3 ∗ own c arg5 x4 ∗ own c arg6 x5
            ∗ own c arg7 x6 ∗ own c arg8 x7
            ∗ own c arg9 (if cond4_1 i then k4_pay3 (k4_pay2 x1 x0 (if cond4_0 i then k4_pay1 else xs)) x2 x3 x4 x5 x6 x7 else x8)
            ∗ own c arg10 (k4_pay2 x1 x0 (if cond4_0 i then k4_pay1 else xs))) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8 arg9 harg9 arg10 harg10) K := by
  simp only [cc4__pool_mlp_kernel_eq_skeleton]; unfold cc4__pool_mlp_kernel_skel own owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%fS, %hS, HS⟩, Hk⟩
  subst h0 h1 h2 h3 h4 h5 h6 h7 h8 hS
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  · iexists _; isplitr
    swap; · iexact H8
    ipureintro
    sl_unfold_words
    by_cases hc1 : cond4_1 i
    · rw [dif_pos hc1, if_pos hc1]
      refine (read_writes_whole _ off4_zero _ _ _ _).trans ?_
      congr 1
      · refine (View.readCov_unit_zero _ off4_zero _ _).trans ?_
        congr 1 <;> first | exact View.ld_unit_zero off4_zero _ _ | exact readAt_zeroed _ off4_zero _ _ _ _
      all_goals exact View.ld_unit_zero off4_zero _ _
    · rw [dif_neg hc1, if_neg hc1]
  iexists _; isplitr
  swap; · iexact HS
  ipureintro
  sl_unfold_words
  refine (read_writes_whole _ off4_zero _ _ _ _).trans ?_
  congr 1 <;> first | exact View.ld_unit_zero off4_zero _ _ | exact readAt_zeroed _ off4_zero _ _ _ _

def acc4 (c : Dev nD) : (n : ℕ) → n < cfg4.N → Vec F S1024x64 .f32
  | 0, hn => k4_pay2 (iblk4 V c 1 ⟨0, hn⟩) (iblk4 V c 0 ⟨0, hn⟩) (k4_pay1 (F := F))
  | n + 1, hn => k4_pay2 (iblk4 V c 1 ⟨n + 1, hn⟩) (iblk4 V c 0 ⟨n + 1, hn⟩) (acc4 c n (Nat.lt_of_succ_lt hn))

theorem acc4_zero (c : Dev nD) (hn : 0 < cfg4.N) :
    acc4 V c 0 hn = k4_pay2 (iblk4 V c 1 ⟨0, hn⟩) (iblk4 V c 0 ⟨0, hn⟩) (k4_pay1 (F := F)) := rfl
theorem acc4_succ (c : Dev nD) (n : ℕ) (hn : n + 1 < cfg4.N) :
    acc4 V c (n + 1) hn = k4_pay2 (iblk4 V c 1 ⟨n + 1, hn⟩) (iblk4 V c 0 ⟨n + 1, hn⟩) (acc4 V c n (Nat.lt_of_succ_lt hn)) := rfl

-- The recurrence of acc4 in the form one run of the body leaves it.
theorem acc4_step (c : Dev nD) (t : Fin cfg4.N) (xs : Vec F S1024x64 .f32)
    (hxs : t.val ≠ 0 → xs = acc4 V c (t.val - 1) (Nat.lt_of_le_of_lt (Nat.sub_le _ _) t.isLt)) :
    acc4 V c t.val t.isLt = k4_pay2 (iblk4 V c 1 t) (iblk4 V c 0 t) (if cond4_0 (grid4.coords t) then k4_pay1 else xs) := by
  obtain ⟨n, hn⟩ := t
  cases n with
  | zero => rw [if_pos ((hcond4_0 _).mpr rfl)]; rfl
  | succ n => rw [if_neg fun h => Nat.succ_ne_zero n ((hcond4_0 _).mp h), hxs (Nat.succ_ne_zero n)]; rfl

def outLast4 (c : Dev nD) (t : Fin cfg4.N) : Vec F S1024x1 .f32 :=
  k4_pay3 (acc4 V c t.val t.isLt) (iblk4 V c 2 t) (iblk4 V c 3 t) (iblk4 V c 4 t) (iblk4 V c 5 t) (iblk4 V c 6 t) (iblk4 V c 7 t)

theorem outLast4_eq (c : Dev nD) (t : Fin cfg4.N) :
    outLast4 V c t = k4_pay3 (acc4 V c t.val t.isLt) (iblk4 V c 2 t) (iblk4 V c 3 t) (iblk4 V c 4 t) (iblk4 V c 5 t) (iblk4 V c 6 t) (iblk4 V c 7 t) := rfl

abbrev scM4 : Memref sig .tc .vmem S1024x64 .f32 := Memref.whole cc4_scratch0

abbrev rest4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop((∃ d, own c scM4 d) ∗ rest4 (F := F) c) ∗ (∃ r, prngReg c r)) := by
  unfold Pipeline.ΦA; rw [scopedRest4_split]; simp only [own, scM4, owns_whole]; try rfl

def Phi4 (c : Dev nD) : (n : ℕ) → n ≤ cfg4.N → sProp 𝕄
  | 0, _ => Pipeline.ΦA spec4 c
  | n + 1, hn => iprop(iprop(own c scM4 (acc4 V c n hn) ∗ rest4 (F := F) c) ∗ (∃ r, prngReg c r))

-- Both shapes of Phi4 opened at once, so that a point needs no case split on being the first.
theorem Phi4_open (c : Dev nD) (n : ℕ) (h : n ≤ cfg4.N) :
    Phi4 V c n h ⊢ iprop(∃ xs, ⌜∀ hz : n ≠ 0, xs = acc4 V c (n - 1) (by omega)⌝
      ∗ iprop(own c scM4 xs ∗ rest4 (F := F) c) ∗ (∃ r, prngReg c r)) := by
  cases n with
  | zero =>
    simp only [Phi4, PhiA4_eq]
    iintro ⟨⟨⟨%d, HS⟩, Hr⟩, Hg⟩
    iexists d; isplitr; · ipureintro; exact fun h => absurd rfl h
    iframe
  | succ n =>
    simp only [Phi4]
    iintro ⟨⟨HS, Hr⟩, Hg⟩
    iexists acc4 V c n h; isplitr; · ipureintro; exact fun _ => rfl
    iframe

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => outLast4 V c t
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_8 (c : Dev nD) (t : Fin cfg4.N) : (dat4 V c).after 8 t = outLast4 V c t := by dsimp only [dat4]

theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t)
    ∧ (∀ d, (dat4 V c).before 3 t d = iblk4 V c 3 t) ∧ (∀ d, (dat4 V c).before 4 t d = iblk4 V c 4 t) ∧ (∀ d, (dat4 V c).before 5 t d = iblk4 V c 5 t)
    ∧ (∀ d, (dat4 V c).before 6 t d = iblk4 V c 6 t) ∧ (∀ d, (dat4 V c).before 7 t d = iblk4 V c 7 t) := by
  refine ⟨?_, ?_, ?_, ?_, ?_, ?_, ?_, ?_⟩ <;>
    exact fun d => ((dat4 V c).before_in_eq_fetched _ rfl (fun _ => rfl) (fun _ _ _ => rfl) (fun _ => rfl) t d).trans rfl

theorem live4_8 : ∀ t : Fin grid4.N, cond4_1 (grid4.coords t) → cfg4.idle 8 (grid4.coords t) = false := by decide +kernel
theorem idle4_8 : ∀ t : Fin grid4.N, ¬cond4_1 (grid4.coords t) → cfg4.idle 8 (grid4.coords t) = true ∧ (cfg4.win 8).flush t = false := by
  decide +kernel

-- Both shapes of window 8's post from one conditional value, chosen by the second condition.
theorem leaves4_8 (c : Dev nD) (t : Fin cfg4.N) (d) :
    own c (st4_8 t) (if cond4_1 (grid4.coords t) then outLast4 V c t else (dat4 V c).before 8 t d)
      ⊢ (dat4 V c).leavesExact 8 t := by
  by_cases h1 : cond4_1 (grid4.coords t)
  · rw [if_pos h1, show (dat4 V c).leavesExact 8 t = own c (st4_8 t) ((dat4 V c).after 8 t) from by
      unfold Dat.leavesExact; rw [live4_8 t h1], after4_8]
  · rw [if_neg h1, Dat.leavesExact_idle (dat4 V c) 8 t (idle4_8 t h1).1 (idle4_8 t h1).2]
    iintro H; iexists d; iexact H

theorem sound_body4 (c : Dev nD) (t : Fin cfg4.N) :
    iprop((dat4 V c).Φ t.castSucc ∗ (dat4 V c).owesAt () t.castSucc
      ∗ (∃ d, own c (st4_0 t) ((dat4 V c).before 0 t d))
      ∗ (∃ d, own c (st4_1 t) ((dat4 V c).before 1 t d))
      ∗ (∃ d, own c (st4_2 t) ((dat4 V c).before 2 t d))
      ∗ (∃ d, own c (st4_3 t) ((dat4 V c).before 3 t d))
      ∗ (∃ d, own c (st4_4 t) ((dat4 V c).before 4 t d))
      ∗ (∃ d, own c (st4_5 t) ((dat4 V c).before 5 t d))
      ∗ (∃ d, own c (st4_6 t) ((dat4 V c).before 6 t d))
      ∗ (∃ d, own c (st4_7 t) ((dat4 V c).before 7 t d))
      ∗ (∃ d, own c (st4_8 t) ((dat4 V c).before 8 t d)))
    ⊢ wp frame (wpE (defs₀ (F := F)) Variants.none c none) Set.univ (bodyAt4 t) fun _ =>
      iprop(iprop(iprop(own c scM4 (acc4 V c t.val t.isLt) ∗ rest4 (F := F) c) ∗ (∃ r, prngReg c r)) ∗ (dat4 V c).owesAt () t.castSucc
        ∗ own c (st4_0 t) (iblk4 V c 0 t)
        ∗ own c (st4_1 t) (iblk4 V c 1 t)
        ∗ own c (st4_2 t) (iblk4 V c 2 t)
        ∗ own c (st4_3 t) (iblk4 V c 3 t)
        ∗ own c (st4_4 t) (iblk4 V c 4 t)
        ∗ own c (st4_5 t) (iblk4 V c 5 t)
        ∗ own c (st4_6 t) (iblk4 V c 6 t)
        ∗ own c (st4_7 t) (iblk4 V c 7 t)
        ∗ (dat4 V c).leavesExact 8 t) := by
  unfold bodyAt4
  simp only [before4 V c t]
  refine (sep_mono_left (Phi4_open V c t.val (Nat.le_of_lt t.isLt))).trans ?_
  iintro ⟨⟨%xs, %hxs, ⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ (grid4.coords t)
    _ _ _ _ _ _ _ _ _ _ _ _ _ _ _ _ _ _ _ _ _ _ _ _ _ _ _ _ _ _ _)
  iframe H0 H1 H2 H3 H4 H5 H6 H7 H8 HS
  rw [← acc4_step V c t xs hxs, ← outLast4_eq]
  iintro ⟨H0, H1, H2, H3, H4, H5, H6, H7, H8, HS⟩
  iframe HS Hr Hg Ho H0 H1 H2 H3 H4 H5 H6 H7
  iapply (leaves4_8 V c t d8); iexact H8

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := by
  rw [PhiA4_eq]
  refine (Phi4_open V c _ (Nat.le_of_lt_succ (Fin.last cfg4.N).isLt)).trans ?_
  iintro ⟨%xs, -, ⟨HS, Hr⟩, Hg⟩
  iframe Hr Hg
  iexists _; iexact HS

end Cert.KernelIdeal.Hand

end
-- ==== Proof.RunAll.lean ====
import proofs.«423572_j60988535604051_1_alg».proof.Proof.Gen.KernelIdeal.Regions
import proofs.«423572_j60988535604051_1_alg».proof.Proof.ConvRegion0
import proofs.«423572_j60988535604051_1_alg».proof.Proof.ConvRegion1
import proofs.«423572_j60988535604051_1_alg».proof.Proof.ConvRegion2
import proofs.«423572_j60988535604051_1_alg».proof.Proof.ConvRegion3
import proofs.«423572_j60988535604051_1_alg».proof.Proof.PoolRegion

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b

abbrev W3 : Dev nD → Valuation τ sig (Elt F) := fun c => StableHlo.after hostOps1 (W2 m c)

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

abbrev W5 : Dev nD → Valuation τ sig (Elt F) := fun c => StableHlo.after hostOps2 (W4 m c)

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b

abbrev W7 : Dev nD → Valuation τ sig (Elt F) := fun c => StableHlo.after hostOps3 (W6 m c)

abbrev V7 : (c : Dev nD) → (b : Ref sig .tc) → Buf (Elt F) ((c : Thread nD τ).loc b) := fun c b => W7 m c b

def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b

abbrev W9 : Dev nD → Valuation τ sig (Elt F) := fun c => StableHlo.after hostOps4 (W8 m c)

abbrev V9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b

theorem W2_keep (c : Dev nD) (b : Ref sig .tc) (hw : b ∉ hostOps0_W) (ha : ∀ w, Pipeline.arrRef spec0 w ≠ b) :
    W2 m c (Proc.devRef .tc b) = W0 m c (Proc.devRef .tc b) :=
  (W2_of_ne m c b ha).trans (StableHlo.after_of_writes_sub hostOps0 _ hostOps0_writes hw)
theorem W4_keep (c : Dev nD) (b : Ref sig .tc) (hw : b ∉ hostOps1_W) (ha : ∀ w, Pipeline.arrRef spec1 w ≠ b) :
    W4 m c (Proc.devRef .tc b) = W2 m c (Proc.devRef .tc b) :=
  (W4_of_ne m c b ha).trans (StableHlo.after_of_writes_sub hostOps1 _ hostOps1_writes hw)
theorem W6_keep (c : Dev nD) (b : Ref sig .tc) (hw : b ∉ hostOps2_W) (ha : ∀ w, Pipeline.arrRef spec2 w ≠ b) :
    W6 m c (Proc.devRef .tc b) = W4 m c (Proc.devRef .tc b) :=
  (W6_of_ne m c b ha).trans (StableHlo.after_of_writes_sub hostOps2 _ hostOps2_writes hw)
theorem W8_keep (c : Dev nD) (b : Ref sig .tc) (hw : b ∉ hostOps3_W) (ha : ∀ w, Pipeline.arrRef spec3 w ≠ b) :
    W8 m c (Proc.devRef .tc b) = W6 m c (Proc.devRef .tc b) :=
  (W8_of_ne m c b ha).trans (StableHlo.after_of_writes_sub hostOps3 _ hostOps3_writes hw)
theorem W9_keep (c : Dev nD) (b : Ref sig .tc) (hw : b ∉ hostOps4_W) :
    W9 m c (Proc.devRef .tc b) = W8 m c (Proc.devRef .tc b) :=
  StableHlo.after_of_writes_sub hostOps4 _ hostOps4_writes hw
theorem W10_in (c : Dev nD) (w : Fin cfg4.W) (hin : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hin _).trans (A_eq4 (V9 m) c w))
theorem W10_keep (c : Dev nD) (b : Ref sig .tc)
    (ha : (∀ w, Pipeline.arrRef spec4 w ≠ b) ∨ ∃ w, (cfg4.win w).isOut = false ∧ Pipeline.arrRef spec4 w = b) :
    W10 m c (Proc.devRef .tc b) = W9 m c (Proc.devRef .tc b) := by
  rcases ha with ha | ⟨w, hin, rfl⟩
  · exact W10_of_ne m c b ha
  · exact W10_in m c w hin

abbrev argRefs : List (Ref sig .tc) := [main_arg0, main_arg1, main_arg2, main_arg3, main_arg4, main_arg5, main_arg6, main_arg7, main_arg8, main_arg9, main_arg10, main_arg11, main_arg12, main_arg13, main_arg14, main_arg15]

-- The arguments are read-only for the whole program.
theorem arg_free : ∀ b ∈ argRefs,
    (b ∉ hostOps0_W ∧ ∀ w, Pipeline.arrRef spec0 w ≠ b) ∧ (b ∉ hostOps1_W ∧ ∀ w, Pipeline.arrRef spec1 w ≠ b)
    ∧ (b ∉ hostOps2_W ∧ ∀ w, Pipeline.arrRef spec2 w ≠ b) ∧ (b ∉ hostOps3_W ∧ ∀ w, Pipeline.arrRef spec3 w ≠ b)
    ∧ b ∉ hostOps4_W ∧ ((∀ w, Pipeline.arrRef spec4 w ≠ b) ∨ ∃ w, (cfg4.win w).isOut = false ∧ Pipeline.arrRef spec4 w = b) := by
  decide

theorem W2_arg (c : Dev nD) (b : Ref sig .tc) (hb : b ∈ argRefs) : W2 m c (Proc.devRef .tc b) = m ((c : Thread nD τ).loc b) :=
  W2_keep m c b (arg_free b hb).1.1 (arg_free b hb).1.2
theorem W4_arg (c : Dev nD) (b : Ref sig .tc) (hb : b ∈ argRefs) : W4 m c (Proc.devRef .tc b) = m ((c : Thread nD τ).loc b) :=
  (W4_keep m c b (arg_free b hb).2.1.1 (arg_free b hb).2.1.2).trans (W2_arg m c b hb)
theorem W6_arg (c : Dev nD) (b : Ref sig .tc) (hb : b ∈ argRefs) : W6 m c (Proc.devRef .tc b) = m ((c : Thread nD τ).loc b) :=
  (W6_keep m c b (arg_free b hb).2.2.1.1 (arg_free b hb).2.2.1.2).trans (W4_arg m c b hb)
theorem W8_arg (c : Dev nD) (b : Ref sig .tc) (hb : b ∈ argRefs) : W8 m c (Proc.devRef .tc b) = m ((c : Thread nD τ).loc b) :=
  (W8_keep m c b (arg_free b hb).2.2.2.1.1 (arg_free b hb).2.2.2.1.2).trans (W6_arg m c b hb)
theorem W9_arg (c : Dev nD) (b : Ref sig .tc) (hb : b ∈ argRefs) : W9 m c (Proc.devRef .tc b) = m ((c : Thread nD τ).loc b) :=
  (W9_keep m c b (arg_free b hb).2.2.2.2.1).trans (W8_arg m c b hb)
theorem W10_arg (c : Dev nD) (b : Ref sig .tc) (hb : b ∈ argRefs) : W10 m c (Proc.devRef .tc b) = m ((c : Thread nD τ).loc b) :=
  (W10_keep m c b (arg_free b hb).2.2.2.2.2).trans (W9_arg m c b hb)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m c) ∗ ∃ r, prngReg c r)

set_option backward.isDefEq.respectTransparency.types false in

-- A region entered at valuation Wi and left at Wo: Wo has the region's arrays at their final contents and is Wi elsewhere.
def mkReg (p : Fin 5) (lf : Pipeline.LaunchFacts (nD := nD) (τ := τ) cfgs p) (Wi Wo : Dev nD → Valuation τ sig (Elt F))
    (hbody : ∀ c, Pipeline.BodyObligationLoose (pdats m p c) defs₀ 𝒱₀ () Set.univ)
    (harr : ∀ c w, Wo c (Proc.devRef .tc (Pipeline.arrRef (cfgs p).spec w)) = (pdats m p c).arrAt w (cfgs p).N)
    (hne : ∀ c (b : Ref sig .tc), (∀ w, Pipeline.arrRef (cfgs p).spec w ≠ b) → Wo c (Proc.devRef .tc b) = Wi c (Proc.devRef .tc b))
    (howed : ∀ c t, (pdats m p c).owed t = 0 := by exact fun _ _ => rfl)
    (hrec : ∀ c (x : SemLoc sig × Unit), x ∈ (pdats m p c).recorded 0 := by exact fun _ _ => trivial)
    (hq : ∀ c w, (pdats m p c).q w = fullShare := by exact fun _ _ => rfl)
    (hA : ∀ c w, (pdats m p c).A w = Wi c (Proc.devRef .tc (Pipeline.arrRef (cfgs p).spec w)) := by exact fun _ _ => rfl)
    (hΦ0 : ∀ c, Pipeline.ΦA (cfgs p).spec c ⊢ (pdats m p c).Φ 0 := by exact fun _ => .rfl)
    (hΦN : ∀ c, (pdats m p c).Φ (Fin.last _) ⊢ Pipeline.ΦA (cfgs p).spec c := by exact fun _ => .rfl)
    (post : Dev nD → sProp 𝕄 := fun c => iprop(StableHlo.held (c : Thread nD τ) (Pipeline.ucRefs τ sig) (Wo c) ∗ R c))
    (hpost : ∀ c : Dev nD, iprop(StableHlo.held (c : Thread nD τ) (Pipeline.ucRefs τ sig) (Wo c) ∗ R c) ⊢ post c := by exact fun _ => .rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun x _ => Or.inl (hrec c x)
      iexact HO
    isplitl [Hp]; · iexact Hp
    iexact Hrest
  hin c := by
    refine (show _ ⊢ Pipeline.ΦA (cfgs p).spec c from ?_).trans (hΦ0 c)
    unfold Pipeline.ΦA
    iintro ⟨Hp, -, Hr⟩
    isplitl [Hr]; · iexact Hr
    iexact Hp
  hout c := by
    refine (hΦN c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c b) (fun b => Wo c b) ((pdats m p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    iapply (hpost c)
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

def reg0 : Pipeline.RegionSeg (pcfgs (F := F)) adm (pdats m) () defs₀ 𝒱₀ L lv 0 :=
  mkReg m 0 launch0 (W1 m) (W2 m) (fun c => (body_obligation0 (V1 m) c).loose) (W2_arr m) (W2_of_ne m)

def reg1 : Pipeline.RegionSeg (pcfgs (F := F)) adm (pdats m) () defs₀ 𝒱₀ L lv 1 :=
  mkReg m 1 launch1 (W3 m) (W4 m) (fun c => (body_obligation1 (V3 m) c).loose) (W4_arr m) (W4_of_ne m)

def reg2 : Pipeline.RegionSeg (pcfgs (F := F)) adm (pdats m) () defs₀ 𝒱₀ L lv 2 :=
  mkReg m 2 launch2 (W5 m) (W6 m) (fun c => (body_obligation2 (V5 m) c).loose) (W6_arr m) (W6_of_ne m)

def reg3 : Pipeline.RegionSeg (pcfgs (F := F)) adm (pdats m) () defs₀ 𝒱₀ L lv 3 :=
  mkReg m 3 launch3 (W7 m) (W8 m) (fun c => (body_obligation3 (V7 m) c).loose) (W8_arr m) (W8_of_ne m)

def reg4 : Pipeline.RegionSeg (pcfgs (F := F)) adm (pdats m) () defs₀ 𝒱₀ L lv 4 :=
  mkReg m 4 launch4 (W9 m) (W10 m) (fun c => (body_obligation4 (V9 m) c).loose) (W10_arr m) (W10_of_ne m) (hΦ0 := hin4 (V9 m)) (hΦN := hout4 (V9 m))
    (post := fun c => iprop(Tₙ m c ∗ ∃ W, owes (c : Thread nD τ) (0 : CellTallies nD τ sig Unit) W)) (hpost := fun c => by
      iintro ⟨Hh, Hp, HO⟩
      isplitl [Hh Hp]
      · isplitl [Hh] <;> iassumption
      iexact HO)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]

theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

abbrev ArgsKept (c : Dev nD) (s : (ℓ : Loc nD τ sig) → Buf (Elt F) ℓ) : Prop :=
    s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6)
    ∧ s ((c.tc : Thread nD τ).loc main_arg7) = m ((c.tc : Thread nD τ).loc main_arg7)
    ∧ s ((c.tc : Thread nD τ).loc main_arg8) = m ((c.tc : Thread nD τ).loc main_arg8)
    ∧ s ((c.tc : Thread nD τ).loc main_arg9) = m ((c.tc : Thread nD τ).loc main_arg9)
    ∧ s ((c.tc : Thread nD τ).loc main_arg10) = m ((c.tc : Thread nD τ).loc main_arg10)
    ∧ s ((c.tc : Thread nD τ).loc main_arg11) = m ((c.tc : Thread nD τ).loc main_arg11)
    ∧ s ((c.tc : Thread nD τ).loc main_arg12) = m ((c.tc : Thread nD τ).loc main_arg12)
    ∧ s ((c.tc : Thread nD τ).loc main_arg13) = m ((c.tc : Thread nD τ).loc main_arg13)
    ∧ s ((c.tc : Thread nD τ).loc main_arg14) = m ((c.tc : Thread nD τ).loc main_arg14)
    ∧ s ((c.tc : Thread nD τ).loc main_arg15) = m ((c.tc : Thread nD τ).loc main_arg15)

theorem args_kept (c : Dev nD) (s : (ℓ : Loc nD τ sig) → Buf (Elt F) ℓ)
    (h : ∀ b ∈ Pipeline.ucRefs τ sig, s (((c : Thread nD τ)).1, b) = W10 m c b) : ArgsKept m c s :=
  have k (b : Ref sig .tc) (hb : b ∈ argRefs) (hs : ¬ (Proc.devRef .tc b : DevRef τ sig).isScoped) :
      s ((c.tc : Thread nD τ).loc b) = m ((c.tc : Thread nD τ).loc b) := (h _ (mem_uc b hs)).trans (W10_arg m c b hb)
  ⟨k main_arg0 (by decide) (by decide), k main_arg1 (by decide) (by decide), k main_arg2 (by decide) (by decide), k main_arg3 (by decide) (by decide),
    k main_arg4 (by decide) (by decide), k main_arg5 (by decide) (by decide), k main_arg6 (by decide) (by decide), k main_arg7 (by decide) (by decide),
    k main_arg8 (by decide) (by decide), k main_arg9 (by decide) (by decide), k main_arg10 (by decide) (by decide), k main_arg11 (by decide) (by decide),
    k main_arg12 (by decide) (by decide), k main_arg13 (by decide) (by decide), k main_arg14 (by decide) (by decide), k main_arg15 (by decide) (by decide)⟩

theorem frame (ρ : Dev nD → PrngReg) : θ_run defs (onTc (τ := τ) (main (F := F))) ⟨m, fun _ => 0, ρ⟩
    (fun r => ∀ c : Dev nD, ArgsKept m c r.2.mem) :=
  (θ_run defs _ _).mono (fun r h c => args_kept m c _ (h c)) (run_all m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev NC : Shape := ⟨2, ![200000, 64]⟩
abbrev N1 : Shape := ⟨2, ![200000, 1]⟩
abbrev Nn : Shape := ⟨1, ![200000]⟩
abbrev CC : Shape := ⟨2, ![64, 64]⟩
abbrev RC : Shape := ⟨2, ![1, 64]⟩
abbrev LCC : Shape := ⟨3, ![4, 64, 64]⟩
abbrev LC : Shape := ⟨2, ![4, 64]⟩
abbrev GC : Shape := ⟨2, ![1024, 64]⟩
abbrev G1 : Shape := ⟨2, ![1024, 1]⟩
abbrev W1s : Shape := ⟨2, ![64, 32]⟩
abbrev W2s : Shape := ⟨2, ![32, 16]⟩
abbrev W3s : Shape := ⟨2, ![16, 1]⟩
abbrev R32 : Shape := ⟨2, ![1, 32]⟩
abbrev R16 : Shape := ⟨2, ![1, 16]⟩
abbrev R1 : Shape := ⟨2, ![1, 1]⟩
abbrev V32 : Shape := ⟨1, ![32]⟩
abbrev V16 : Shape := ⟨1, ![16]⟩
abbrev V1 : Shape := ⟨1, ![1]⟩
abbrev E2 : Shape := ⟨2, ![2, 3200000]⟩
abbrev T28 : Shape := ⟨2, ![28, 64]⟩

def wslice (w : LCC.Idx → EReal) (l : Fin 4) : CC.Idx → EReal := fun i => w (ix3 l (i 0) (i 1))

def brow (b : LC.Idx → EReal) (l : Fin 4) : RC.Idx → EReal := fun i => b (ix2 l (i 1))

def row {n : Nat} (b : (⟨1, ![n]⟩ : Shape).Idx → EReal) : (⟨2, ![1, n]⟩ : Shape).Idx → EReal := fun i => b (ix1 (i 1))

def col (b : Nn.Idx → BitVec 32) : N1.Idx → BitVec 32 := fun i => b (ix1 (i 0))

def hidden (h a : NC.Idx → EReal) (w1 : CC.Idx → EReal) (b1 : RC.Idx → EReal) (n : Fin 200000) (k : Fin 64) : EReal :=
  max ((∑ j : Fin 64, (h (ix2 n j) + a (ix2 n j)) * w1 (ix2 j k)) + b1 (ix2 0 k)) 0

def conv (h a : NC.Idx → EReal) (w1 : CC.Idx → EReal) (b1 : RC.Idx → EReal) (w2 : CC.Idx → EReal) (b2 : RC.Idx → EReal) :
    NC.Idx → EReal :=
  fun i => (∑ k : Fin 64, hidden h a w1 b1 (i 0) k * w2 (ix2 k (i 1))) + b2 (ix2 0 (i 1))

def layer (agg : (NC.Idx → EReal) → NC.Idx → EReal) (x6 : LCC.Idx → EReal) (x7 : LC.Idx → EReal) (x8 : LCC.Idx → EReal)
    (x9 : LC.Idx → EReal) (l : Fin 4) (h : NC.Idx → EReal) : NC.Idx → EReal :=
  conv h (agg h) (wslice x6 l) (brow x7 l) (wslice x8 l) (brow x9 l)

def pool (h : NC.Idx → EReal) (batch : N1.Idx → BitVec 32) : GC.Idx → EReal :=
  fun i => ∑ n : Fin 200000, if batch (ix2 n 0) = BitVec.ofNat 32 (i 0).val then h (ix2 n (i 1)) else 0

def ro1 (g : GC.Idx → EReal) (w1 : W1s.Idx → EReal) (b1 : R32.Idx → EReal) (r : Fin 1024) (b : Fin 32) : EReal :=
  max ((∑ a : Fin 64, g (ix2 r a) * w1 (ix2 a b)) + b1 (ix2 0 b)) 0

def ro2 (g : GC.Idx → EReal) (w1 : W1s.Idx → EReal) (b1 : R32.Idx → EReal) (w2 : W2s.Idx → EReal) (b2 : R16.Idx → EReal)
    (r : Fin 1024) (c : Fin 16) : EReal :=
  max ((∑ b : Fin 32, ro1 g w1 b1 r b * w2 (ix2 b c)) + b2 (ix2 0 c)) 0

def mlp (g : GC.Idx → EReal) (w1 : W1s.Idx → EReal) (b1 : R32.Idx → EReal) (w2 : W2s.Idx → EReal) (b2 : R16.Idx → EReal)
    (w3 : W3s.Idx → EReal) (b3 : R1.Idx → EReal) : G1.Idx → EReal :=
  fun i => (∑ c : Fin 16, ro2 g w1 b1 w2 b2 (i 0) c * w3 (ix2 c (i 1))) + b3 (ix2 0 (i 1))

def feats (agg : (NC.Idx → EReal) → NC.Idx → EReal) (x6 : LCC.Idx → EReal) (x7 : LC.Idx → EReal) (x8 : LCC.Idx → EReal)
    (x9 : LC.Idx → EReal) (h0 : NC.Idx → EReal) : NC.Idx → EReal :=
  layer agg x6 x7 x8 x9 3 (layer agg x6 x7 x8 x9 2 (layer agg x6 x7 x8 x9 1 (layer agg x6 x7 x8 x9 0 h0)))

def result (agg : (NC.Idx → EReal) → NC.Idx → EReal) (h0 : NC.Idx → EReal) (x3 : Nn.Idx → BitVec 32)
    (x6 : LCC.Idx → EReal) (x7 : LC.Idx → EReal) (x8 : LCC.Idx → EReal) (x9 : LC.Idx → EReal)
    (x10 : W1s.Idx → EReal) (x11 : V32.Idx → EReal) (x12 : W2s.Idx → EReal) (x13 : V16.Idx → EReal)
    (x14 : W3s.Idx → EReal) (x15 : V1.Idx → EReal) : G1.Idx → EReal :=
  mlp (pool (feats agg x6 x7 x8 x9 h0) (col x3)) x10 (row x11) x12 (row x13) x14 (row x15)

end Cert.Spec

end
-- ==== Proof.ConvValue0.lean ====
import proofs.«423572_j60988535604051_1_alg».proof.Proof.ConvRegion0
import proofs.«423572_j60988535604051_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxHeartbeats 2000000

noncomputable section

namespace Cert.KernelIdeal.HandValue

open Cert.KernelIdeal Cert.KernelIdeal.Gen
open Idealize.ShloMosaic Idealize.ShloMosaic.TcCoe Idealize.ShloMosaic.ValueIdx

theorem mm_apply (x : FVec Ideal S5000x64 .bf16) (w : FVec Ideal S64x64 .bf16) (r : Fin 5000) (q : Fin 64) :
    matmul dot_S5000x64_S64x64_S5000x64_1_0_0_1_n_n none x w (constant (F := Ideal) S5000x64 .f32 0#32) (ix2 r q)
      = ∑ k : Fin 64, x (ix2 r k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  exact congrArg₂ (· * ·) (congrArg x (Shape.idx_ext₂ rfl hk)) (congrArg w (Shape.idx_ext₂ hk rfl))

theorem hz : (![0, 0] : Fin 2 → Nat) = fun _ => 0 := by decide

-- Both products are plain sums over the 64 channels, so row r of the payload reads row r of the two feature blocks only.
theorem blk_conv (xh xa : Vec Ideal S5000x64 .f32) (H A : Spec.NC.Idx → EReal) (w1 : Spec.CC.Idx → EReal) (b1 : Spec.RC.Idx → EReal)
    (w2 : Spec.CC.Idx → EReal) (b2 : Spec.RC.Idx → EReal) (r : Fin 5000) (q : Fin 64) (n : Fin 200000)
    (hh : ∀ k : Fin 64, xh (ix2 r k) = H (ix2 n k) ∧ xa (ix2 r k) = A (ix2 n k)) :
    k0_pay1 (F := Ideal) xh xa w1 b1 w2 b2 (ix2 r q) = Spec.conv H A w1 b1 w2 b2 (ix2 n q) := by
  unfold k0_pay1 Spec.conv Spec.hidden
  simp only [shapeCast_self]
  rw [addf_apply, mm_apply, broadcastTo_1b_ab_apply]
  refine congrArg (· + b2 (ix2 0 q)) (Finset.sum_congr rfl fun k _ => ?_)
  rw [truncf_apply, truncf_apply, maximumf_apply, addf_apply, mm_apply, broadcastTo_1b_ab_apply, broadcast_apply]
  simp only [truncf_apply, addf_apply, Ideal.ofBits_def, Ideal.ofBits_zero_f32, (hh _).1, (hh _).2]

theorem gridN0 : grid0.N = 40 := by decide

theorem idx_facts0 : ∀ (t : Fin cfg0.N) (a : Fin 2),
    (cfg0.win 2).index t a = 0 ∧ (cfg0.win 3).index t a = 0 ∧ (cfg0.win 4).index t a = 0 ∧ (cfg0.win 5).index t a = 0
    ∧ (cfg0.win 0).index t a = ![t.val, 0] a ∧ (cfg0.win 1).index t a = ![t.val, 0] a ∧ (cfg0.win 6).index t a = ![t.val, 0] a :=
  (by decide +kernel : ∀ (t : Fin grid0.N) (a : Fin 2), _)

variable (V : (c : Dev nD) → (b : Ref sig .tc) → Buf (Elt Ideal) ((c : Thread nD τ).loc b))

theorem blks0 (c : Dev nD) (t : Fin cfg0.N) :
    Hand.iblk0 V c 2 t = V c (Pipeline.arrRef spec0 2) ∧ Hand.iblk0 V c 3 t = V c (Pipeline.arrRef spec0 3)
    ∧ Hand.iblk0 V c 4 t = V c (Pipeline.arrRef spec0 4) ∧ Hand.iblk0 V c 5 t = V c (Pipeline.arrRef spec0 5)
    ∧ ∀ (r : Fin 5000) (n : Fin 200000), n.val = t.val * 5000 + r.val → ∀ k : Fin 64,
      (Hand.iblk0 V c 0 t : Vec Ideal S5000x64 .f32) (ix2 r k) = (V c (Pipeline.arrRef spec0 0) : S200000x64.Idx → EReal) (ix2 n k)
      ∧ (Hand.iblk0 V c 1 t : Vec Ideal S5000x64 .f32) (ix2 r k) = (V c (Pipeline.arrRef spec0 1) : S200000x64.Idx → EReal) (ix2 n k) := by
  refine ⟨funext fun y => ?_, funext fun y => ?_, funext fun y => ?_, funext fun y => ?_, fun r n hn k => ⟨?_, ?_⟩⟩ <;>
    refine congrArg (V c _) (Shape.idx_ext₂ ?_ ?_) <;>
    (show _ * _ + 1 * _ = _
     simp only [*, idx_facts0 t, ix2, Matrix.cons_val_zero, Matrix.cons_val_one, Nat.zero_mul, Nat.zero_add, Nat.one_mul])

theorem flushed_eq0 (c : Dev nD) (t : Fin cfg0.N) :
    (Hand.dat0 V c).flushed 6 t
      = ((cfg0.win 6).blk t).view.read (Elt Ideal) (Spec.conv (V c (Pipeline.arrRef spec0 0)) (V c (Pipeline.arrRef spec0 1))
          (V c (Pipeline.arrRef spec0 2)) (V c (Pipeline.arrRef spec0 3)) (V c (Pipeline.arrRef spec0 4)) (V c (Pipeline.arrRef spec0 5))) := by
  show (cfg0.win 6).cut (grid0.coords t) ((Hand.dat0 V c).after 6 t) = _
  rw [Hand.after0_6]
  unfold Hand.out0_6
  rw [View.canon_unit_zero hz]
  simp only [View.ld_unit_zero (S := S5000x64) hz, View.ld_unit_zero (S := S64x64) hz, View.ld_unit_zero (S := S1x64) hz]
  obtain ⟨h2, h3, h4, h5, hr⟩ := blks0 V c t
  rw [h2, h3, h4, h5]
  funext j
  have hj : (j 0).val < 5000 := (j 0).isLt
  have hn : t.val * 5000 + (j 0).val < 200000 := by have := lt_of_lt_of_eq t.isLt gridN0; omega
  refine ((congrArg _ (Shape.idx_ext₂ rfl rfl)).trans (blk_conv _ _ _ _ _ _ _ _ ⟨(j 0).val, hj⟩ ⟨(j 1).val, (j 1).isLt⟩
    ⟨t.val * 5000 + (j 0).val, hn⟩ (hr _ _ rfl))).trans (congrArg _ (Shape.idx_ext₂ ?_ ?_)) <;>
    (show _ = _ * _ + 1 * _
     simp only [idx_facts0 t, ix2, Matrix.cons_val_zero, Matrix.cons_val_one, Nat.zero_mul, Nat.zero_add, Nat.one_mul])

-- Row n lies in block n / 5000.
theorem covered0 (i : S200000x64.Idx) : ∃ t : Fin cfg0.N, (cfg0.win 6).flush t = true ∧ i ∈ ((cfg0.win 6).blk t).view.set := by
  have h0 : (i 0).val < 200000 := (i 0).isLt
  have h1 : (i 1).val < 64 := (i 1).isLt
  obtain ⟨T, hT⟩ : ∃ T : Fin cfg0.N, T.val = (i 0).val / 5000 := ⟨⟨_, by show _ < grid0.N; rw [gridN0]; omega⟩, rfl⟩
  refine ⟨T, flush0_6 T, ?_⟩
  show i ∈ ((View.whole (Pipeline.arrRef spec0 6)).slice ((cfg0.win 6).rect T)).set
  rw [View.set_slice_whole, Rect.mem_set_unit]
  refine Fin.forall_fin_two.mpr ⟨?_, ?_⟩
  · show _ * 5000 ≤ (i 0).val ∧ (i 0).val < _ * 5000 + 5000
    simp only [idx_facts0 T, Matrix.cons_val_zero, hT]; omega
  · show _ * 64 ≤ (i 1).val ∧ (i 1).val < _ * 64 + 64
    simp only [idx_facts0 T, Matrix.cons_val_one, Matrix.cons_val_zero]; omega

theorem conv_arr0 (c : Dev nD) :
    (Hand.dat0 (F := Ideal) V c).arrAt 6 cfg0.N
      = Spec.conv (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (Hand.dat0 (F := Ideal) V c).arrAt_eq_of_cover 6 _ (fun t _ => flushed_eq0 V c t) covered0

end Cert.KernelIdeal.HandValue

end
-- ==== Proof.ConvValue1.lean ====
import proofs.«423572_j60988535604051_1_alg».proof.Proof.ConvRegion1
import proofs.«423572_j60988535604051_1_alg».proof.Proof.ConvValue0

set_option maxHeartbeats 2000000

noncomputable section

namespace Cert.KernelIdeal.HandValue

open Cert.KernelIdeal Cert.KernelIdeal.Gen
open Idealize.ShloMosaic Idealize.ShloMosaic.TcCoe Idealize.ShloMosaic.ValueIdx

theorem gridN1 : grid1.N = 40 := by decide

theorem idx_facts1 : ∀ (t : Fin cfg1.N) (a : Fin 2),
    (cfg1.win 2).index t a = 0 ∧ (cfg1.win 3).index t a = 0 ∧ (cfg1.win 4).index t a = 0 ∧ (cfg1.win 5).index t a = 0
    ∧ (cfg1.win 0).index t a = ![t.val, 0] a ∧ (cfg1.win 1).index t a = ![t.val, 0] a ∧ (cfg1.win 6).index t a = ![t.val, 0] a :=
  (by decide +kernel : ∀ (t : Fin grid1.N) (a : Fin 2), _)

variable (V : (c : Dev nD) → (b : Ref sig .tc) → Buf (Elt Ideal) ((c : Thread nD τ).loc b))

theorem blks1 (c : Dev nD) (t : Fin cfg1.N) :
    Hand.iblk1 V c 2 t = V c (Pipeline.arrRef spec1 2) ∧ Hand.iblk1 V c 3 t = V c (Pipeline.arrRef spec1 3)
    ∧ Hand.iblk1 V c 4 t = V c (Pipeline.arrRef spec1 4) ∧ Hand.iblk1 V c 5 t = V c (Pipeline.arrRef spec1 5)
    ∧ ∀ (r : Fin 5000) (n : Fin 200000), n.val = t.val * 5000 + r.val → ∀ k : Fin 64,
      (Hand.iblk1 V c 0 t : Vec Ideal S5000x64 .f32) (ix2 r k) = (V c (Pipeline.arrRef spec1 0) : S200000x64.Idx → EReal) (ix2 n k)
      ∧ (Hand.iblk1 V c 1 t : Vec Ideal S5000x64 .f32) (ix2 r k) = (V c (Pipeline.arrRef spec1 1) : S200000x64.Idx → EReal) (ix2 n k) := by
  refine ⟨funext fun y => ?_, funext fun y => ?_, funext fun y => ?_, funext fun y => ?_, fun r n hn k => ⟨?_, ?_⟩⟩ <;>
    refine congrArg (V c _) (Shape.idx_ext₂ ?_ ?_) <;>
    (show _ * _ + 1 * _ = _
     simp only [*, idx_facts1 t, ix2, Matrix.cons_val_zero, Matrix.cons_val_one, Nat.zero_mul, Nat.zero_add, Nat.one_mul])

theorem flushed_eq1 (c : Dev nD) (t : Fin cfg1.N) :
    (Hand.dat1 V c).flushed 6 t
      = ((cfg1.win 6).blk t).view.read (Elt Ideal) (Spec.conv (V c (Pipeline.arrRef spec1 0)) (V c (Pipeline.arrRef spec1 1))
          (V c (Pipeline.arrRef spec1 2)) (V c (Pipeline.arrRef spec1 3)) (V c (Pipeline.arrRef spec1 4)) (V c (Pipeline.arrRef spec1 5))) := by
  show (cfg1.win 6).cut (grid1.coords t) ((Hand.dat1 V c).after 6 t) = _
  rw [Hand.after1_6]
  unfold Hand.out1_6
  rw [View.canon_unit_zero hz]
  simp only [View.ld_unit_zero (S := S5000x64) hz, View.ld_unit_zero (S := S64x64) hz, View.ld_unit_zero (S := S1x64) hz]
  obtain ⟨h2, h3, h4, h5, hr⟩ := blks1 V c t
  rw [h2, h3, h4, h5]
  funext j
  have hj : (j 0).val < 5000 := (j 0).isLt
  have hn : t.val * 5000 + (j 0).val < 200000 := by have := lt_of_lt_of_eq t.isLt gridN1; omega
  refine ((congrArg _ (Shape.idx_ext₂ rfl rfl)).trans (blk_conv _ _ _ _ _ _ _ _ ⟨(j 0).val, hj⟩ ⟨(j 1).val, (j 1).isLt⟩
    ⟨t.val * 5000 + (j 0).val, hn⟩ (hr _ _ rfl))).trans (congrArg _ (Shape.idx_ext₂ ?_ ?_)) <;>
    (show _ = _ * _ + 1 * _
     simp only [idx_facts1 t, ix2, Matrix.cons_val_zero, Matrix.cons_val_one, Nat.zero_mul, Nat.zero_add, Nat.one_mul])

-- Row n lies in block n / 5000.
theorem covered1 (i : S200000x64.Idx) : ∃ t : Fin cfg1.N, (cfg1.win 6).flush t = true ∧ i ∈ ((cfg1.win 6).blk t).view.set := by
  have h0 : (i 0).val < 200000 := (i 0).isLt
  have h1 : (i 1).val < 64 := (i 1).isLt
  obtain ⟨T, hT⟩ : ∃ T : Fin cfg1.N, T.val = (i 0).val / 5000 := ⟨⟨_, by show _ < grid1.N; rw [gridN1]; omega⟩, rfl⟩
  refine ⟨T, flush1_6 T, ?_⟩
  show i ∈ ((View.whole (Pipeline.arrRef spec1 6)).slice ((cfg1.win 6).rect T)).set
  rw [View.set_slice_whole, Rect.mem_set_unit]
  refine Fin.forall_fin_two.mpr ⟨?_, ?_⟩
  · show _ * 5000 ≤ (i 0).val ∧ (i 0).val < _ * 5000 + 5000
    simp only [idx_facts1 T, Matrix.cons_val_zero, hT]; omega
  · show _ * 64 ≤ (i 1).val ∧ (i 1).val < _ * 64 + 64
    simp only [idx_facts1 T, Matrix.cons_val_one, Matrix.cons_val_zero]; omega

theorem conv_arr1 (c : Dev nD) :
    (Hand.dat1 (F := Ideal) V c).arrAt 6 cfg1.N
      = Spec.conv (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (Hand.dat1 (F := Ideal) V c).arrAt_eq_of_cover 6 _ (fun t _ => flushed_eq1 V c t) covered1

end Cert.KernelIdeal.HandValue

end
-- ==== Proof.ConvValue2.lean ====
import proofs.«423572_j60988535604051_1_alg».proof.Proof.ConvRegion2
import proofs.«423572_j60988535604051_1_alg».proof.Proof.ConvValue0

set_option maxHeartbeats 2000000

noncomputable section

namespace Cert.KernelIdeal.HandValue

open Cert.KernelIdeal Cert.KernelIdeal.Gen
open Idealize.ShloMosaic Idealize.ShloMosaic.TcCoe Idealize.ShloMosaic.ValueIdx

theorem gridN2 : grid2.N = 40 := by decide

theorem idx_facts2 : ∀ (t : Fin cfg2.N) (a : Fin 2),
    (cfg2.win 2).index t a = 0 ∧ (cfg2.win 3).index t a = 0 ∧ (cfg2.win 4).index t a = 0 ∧ (cfg2.win 5).index t a = 0
    ∧ (cfg2.win 0).index t a = ![t.val, 0] a ∧ (cfg2.win 1).index t a = ![t.val, 0] a ∧ (cfg2.win 6).index t a = ![t.val, 0] a :=
  (by decide +kernel : ∀ (t : Fin grid2.N) (a : Fin 2), _)

variable (V : (c : Dev nD) → (b : Ref sig .tc) → Buf (Elt Ideal) ((c : Thread nD τ).loc b))

theorem blks2 (c : Dev nD) (t : Fin cfg2.N) :
    Hand.iblk2 V c 2 t = V c (Pipeline.arrRef spec2 2) ∧ Hand.iblk2 V c 3 t = V c (Pipeline.arrRef spec2 3)
    ∧ Hand.iblk2 V c 4 t = V c (Pipeline.arrRef spec2 4) ∧ Hand.iblk2 V c 5 t = V c (Pipeline.arrRef spec2 5)
    ∧ ∀ (r : Fin 5000) (n : Fin 200000), n.val = t.val * 5000 + r.val → ∀ k : Fin 64,
      (Hand.iblk2 V c 0 t : Vec Ideal S5000x64 .f32) (ix2 r k) = (V c (Pipeline.arrRef spec2 0) : S200000x64.Idx → EReal) (ix2 n k)
      ∧ (Hand.iblk2 V c 1 t : Vec Ideal S5000x64 .f32) (ix2 r k) = (V c (Pipeline.arrRef spec2 1) : S200000x64.Idx → EReal) (ix2 n k) := by
  refine ⟨funext fun y => ?_, funext fun y => ?_, funext fun y => ?_, funext fun y => ?_, fun r n hn k => ⟨?_, ?_⟩⟩ <;>
    refine congrArg (V c _) (Shape.idx_ext₂ ?_ ?_) <;>
    (show _ * _ + 1 * _ = _
     simp only [*, idx_facts2 t, ix2, Matrix.cons_val_zero, Matrix.cons_val_one, Nat.zero_mul, Nat.zero_add, Nat.one_mul])

theorem flushed_eq2 (c : Dev nD) (t : Fin cfg2.N) :
    (Hand.dat2 V c).flushed 6 t
      = ((cfg2.win 6).blk t).view.read (Elt Ideal) (Spec.conv (V c (Pipeline.arrRef spec2 0)) (V c (Pipeline.arrRef spec2 1))
          (V c (Pipeline.arrRef spec2 2)) (V c (Pipeline.arrRef spec2 3)) (V c (Pipeline.arrRef spec2 4)) (V c (Pipeline.arrRef spec2 5))) := by
  show (cfg2.win 6).cut (grid2.coords t) ((Hand.dat2 V c).after 6 t) = _
  rw [Hand.after2_6]
  unfold Hand.out2_6
  rw [View.canon_unit_zero hz]
  simp only [View.ld_unit_zero (S := S5000x64) hz, View.ld_unit_zero (S := S64x64) hz, View.ld_unit_zero (S := S1x64) hz]
  obtain ⟨h2, h3, h4, h5, hr⟩ := blks2 V c t
  rw [h2, h3, h4, h5]
  funext j
  have hj : (j 0).val < 5000 := (j 0).isLt
  have hn : t.val * 5000 + (j 0).val < 200000 := by have := lt_of_lt_of_eq t.isLt gridN2; omega
  refine ((congrArg _ (Shape.idx_ext₂ rfl rfl)).trans (blk_conv _ _ _ _ _ _ _ _ ⟨(j 0).val, hj⟩ ⟨(j 1).val, (j 1).isLt⟩
    ⟨t.val * 5000 + (j 0).val, hn⟩ (hr _ _ rfl))).trans (congrArg _ (Shape.idx_ext₂ ?_ ?_)) <;>
    (show _ = _ * _ + 1 * _
     simp only [idx_facts2 t, ix2, Matrix.cons_val_zero, Matrix.cons_val_one, Nat.zero_mul, Nat.zero_add, Nat.one_mul])

-- Row n lies in block n / 5000.
theorem covered2 (i : S200000x64.Idx) : ∃ t : Fin cfg2.N, (cfg2.win 6).flush t = true ∧ i ∈ ((cfg2.win 6).blk t).view.set := by
  have h0 : (i 0).val < 200000 := (i 0).isLt
  have h1 : (i 1).val < 64 := (i 1).isLt
  obtain ⟨T, hT⟩ : ∃ T : Fin cfg2.N, T.val = (i 0).val / 5000 := ⟨⟨_, by show _ < grid2.N; rw [gridN2]; omega⟩, rfl⟩
  refine ⟨T, flush2_6 T, ?_⟩
  show i ∈ ((View.whole (Pipeline.arrRef spec2 6)).slice ((cfg2.win 6).rect T)).set
  rw [View.set_slice_whole, Rect.mem_set_unit]
  refine Fin.forall_fin_two.mpr ⟨?_, ?_⟩
  · show _ * 5000 ≤ (i 0).val ∧ (i 0).val < _ * 5000 + 5000
    simp only [idx_facts2 T, Matrix.cons_val_zero, hT]; omega
  · show _ * 64 ≤ (i 1).val ∧ (i 1).val < _ * 64 + 64
    simp only [idx_facts2 T, Matrix.cons_val_one, Matrix.cons_val_zero]; omega

theorem conv_arr2 (c : Dev nD) :
    (Hand.dat2 (F := Ideal) V c).arrAt 6 cfg2.N
      = Spec.conv (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (Hand.dat2 (F := Ideal) V c).arrAt_eq_of_cover 6 _ (fun t _ => flushed_eq2 V c t) covered2

end Cert.KernelIdeal.HandValue

end
-- ==== Proof.ConvValue3.lean ====
import proofs.«423572_j60988535604051_1_alg».proof.Proof.ConvRegion3
import proofs.«423572_j60988535604051_1_alg».proof.Proof.ConvValue0

set_option maxHeartbeats 2000000

noncomputable section

namespace Cert.KernelIdeal.HandValue

open Cert.KernelIdeal Cert.KernelIdeal.Gen
open Idealize.ShloMosaic Idealize.ShloMosaic.TcCoe Idealize.ShloMosaic.ValueIdx

theorem gridN3 : grid3.N = 40 := by decide

theorem idx_facts3 : ∀ (t : Fin cfg3.N) (a : Fin 2),
    (cfg3.win 2).index t a = 0 ∧ (cfg3.win 3).index t a = 0 ∧ (cfg3.win 4).index t a = 0 ∧ (cfg3.win 5).index t a = 0
    ∧ (cfg3.win 0).index t a = ![t.val, 0] a ∧ (cfg3.win 1).index t a = ![t.val, 0] a ∧ (cfg3.win 6).index t a = ![t.val, 0] a :=
  (by decide +kernel : ∀ (t : Fin grid3.N) (a : Fin 2), _)

variable (V : (c : Dev nD) → (b : Ref sig .tc) → Buf (Elt Ideal) ((c : Thread nD τ).loc b))

theorem blks3 (c : Dev nD) (t : Fin cfg3.N) :
    Hand.iblk3 V c 2 t = V c (Pipeline.arrRef spec3 2) ∧ Hand.iblk3 V c 3 t = V c (Pipeline.arrRef spec3 3)
    ∧ Hand.iblk3 V c 4 t = V c (Pipeline.arrRef spec3 4) ∧ Hand.iblk3 V c 5 t = V c (Pipeline.arrRef spec3 5)
    ∧ ∀ (r : Fin 5000) (n : Fin 200000), n.val = t.val * 5000 + r.val → ∀ k : Fin 64,
      (Hand.iblk3 V c 0 t : Vec Ideal S5000x64 .f32) (ix2 r k) = (V c (Pipeline.arrRef spec3 0) : S200000x64.Idx → EReal) (ix2 n k)
      ∧ (Hand.iblk3 V c 1 t : Vec Ideal S5000x64 .f32) (ix2 r k) = (V c (Pipeline.arrRef spec3 1) : S200000x64.Idx → EReal) (ix2 n k) := by
  refine ⟨funext fun y => ?_, funext fun y => ?_, funext fun y => ?_, funext fun y => ?_, fun r n hn k => ⟨?_, ?_⟩⟩ <;>
    refine congrArg (V c _) (Shape.idx_ext₂ ?_ ?_) <;>
    (show _ * _ + 1 * _ = _
     simp only [*, idx_facts3 t, ix2, Matrix.cons_val_zero, Matrix.cons_val_one, Nat.zero_mul, Nat.zero_add, Nat.one_mul])

theorem flushed_eq3 (c : Dev nD) (t : Fin cfg3.N) :
    (Hand.dat3 V c).flushed 6 t
      = ((cfg3.win 6).blk t).view.read (Elt Ideal) (Spec.conv (V c (Pipeline.arrRef spec3 0)) (V c (Pipeline.arrRef spec3 1))
          (V c (Pipeline.arrRef spec3 2)) (V c (Pipeline.arrRef spec3 3)) (V c (Pipeline.arrRef spec3 4)) (V c (Pipeline.arrRef spec3 5))) := by
  show (cfg3.win 6).cut (grid3.coords t) ((Hand.dat3 V c).after 6 t) = _
  rw [Hand.after3_6]
  unfold Hand.out3_6
  rw [View.canon_unit_zero hz]
  simp only [View.ld_unit_zero (S := S5000x64) hz, View.ld_unit_zero (S := S64x64) hz, View.ld_unit_zero (S := S1x64) hz]
  obtain ⟨h2, h3, h4, h5, hr⟩ := blks3 V c t
  rw [h2, h3, h4, h5]
  funext j
  have hj : (j 0).val < 5000 := (j 0).isLt
  have hn : t.val * 5000 + (j 0).val < 200000 := by have := lt_of_lt_of_eq t.isLt gridN3; omega
  refine ((congrArg _ (Shape.idx_ext₂ rfl rfl)).trans (blk_conv _ _ _ _ _ _ _ _ ⟨(j 0).val, hj⟩ ⟨(j 1).val, (j 1).isLt⟩
    ⟨t.val * 5000 + (j 0).val, hn⟩ (hr _ _ rfl))).trans (congrArg _ (Shape.idx_ext₂ ?_ ?_)) <;>
    (show _ = _ * _ + 1 * _
     simp only [idx_facts3 t, ix2, Matrix.cons_val_zero, Matrix.cons_val_one, Nat.zero_mul, Nat.zero_add, Nat.one_mul])

-- Row n lies in block n / 5000.
theorem covered3 (i : S200000x64.Idx) : ∃ t : Fin cfg3.N, (cfg3.win 6).flush t = true ∧ i ∈ ((cfg3.win 6).blk t).view.set := by
  have h0 : (i 0).val < 200000 := (i 0).isLt
  have h1 : (i 1).val < 64 := (i 1).isLt
  obtain ⟨T, hT⟩ : ∃ T : Fin cfg3.N, T.val = (i 0).val / 5000 := ⟨⟨_, by show _ < grid3.N; rw [gridN3]; omega⟩, rfl⟩
  refine ⟨T, flush3_6 T, ?_⟩
  show i ∈ ((View.whole (Pipeline.arrRef spec3 6)).slice ((cfg3.win 6).rect T)).set
  rw [View.set_slice_whole, Rect.mem_set_unit]
  refine Fin.forall_fin_two.mpr ⟨?_, ?_⟩
  · show _ * 5000 ≤ (i 0).val ∧ (i 0).val < _ * 5000 + 5000
    simp only [idx_facts3 T, Matrix.cons_val_zero, hT]; omega
  · show _ * 64 ≤ (i 1).val ∧ (i 1).val < _ * 64 + 64
    simp only [idx_facts3 T, Matrix.cons_val_one, Matrix.cons_val_zero]; omega

theorem conv_arr3 (c : Dev nD) :
    (Hand.dat3 (F := Ideal) V c).arrAt 6 cfg3.N
      = Spec.conv (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (Hand.dat3 (F := Ideal) V c).arrAt_eq_of_cover 6 _ (fun t _ => flushed_eq3 V c t) covered3

end Cert.KernelIdeal.HandValue

end
-- ==== Proof.PoolValue.lean ====
import proofs.«423572_j60988535604051_1_alg».proof.Proof.PoolRegion
import proofs.«423572_j60988535604051_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.TcCoe Idealize.ShloMosaic.ValueIdx
open Idealize.SL.Sem

theorem pool_pay1_apply (i : S1024x64.Idx) : (k4_pay1 (F := Ideal)) i = 0 := by
  unfold k4_pay1
  exact (congrFun (shapeCast_self _ shapeCasts_S1024x64_S1024x64) i).trans Ideal.ofBits_zero_f32

theorem idx2_ext {n0 n1 : ℕ} {i j : (⟨2, ![n0, n1]⟩ : Shape).Idx} (h0 : (i 0).val = (j 0).val) (h1 : (i 1).val = (j 1).val) : i = j :=
  funext fun a => Fin.ext (match a with | ⟨0, _⟩ => h0 | ⟨1, _⟩ => h1)

-- A matrix product added to zero, read at an index, is the sum over the one contracted axis.
theorem matmul_zero_apply {sl sr so : Shape} (d : DotDims sl sr so) (n : ℕ) (hr : d.contr.rank = 1) (hs : d.contr.size ⟨0, by omega⟩ = n)
    (x : FVec Ideal sl .bf16) (w : FVec Ideal sr .bf16) (j : so.Idx) (L : Fin n → sl.Idx) (R : Fin n → sr.Idx)
    (hl : ∀ q, d.lhsIdx j q = L (contrEquiv1 d n hr hs q)) (hR : ∀ q, d.rhsIdx j q = R (contrEquiv1 d n hr hs q)) :
    matmul d none x w (constant (F := Ideal) so .f32 0x00000000#32) j = ∑ k, x (L k) * w (R k) := by
  simp only [matmul]
  rw [Ideal.matmul_constant_zero_apply, ← Equiv.sum_comp (contrEquiv1 d n hr hs)]
  exact Finset.sum_congr rfl fun q _ => by rw [hl q, hR q]

theorem pool_onehot_word (a b : BitVec 32) :
    ((((IntOp.cmpi .eq a b).setWidth 32).toInt : ℝ) : EReal) = if a = b then 1 else 0 := by
  by_cases h : a = b
  · simp [IntOp.cmpi, h]
  · simp [IntOp.cmpi, h, beq_eq_false_iff_ne.2 h]

-- At graph g and channel q the sum gains the features of those of the 4000 rows whose id word is g.
theorem pool_pay2_apply (v3 : Vec Ideal S4000x1 .i32) (v5 : Vec Ideal S4000x64 .f32) (v15 : Vec Ideal S1024x64 .f32)
    (g : Fin 1024) (q : Fin 64) :
    k4_pay2 v3 v5 v15 (ix2 g q)
      = v15 (ix2 g q) + ∑ r : Fin 4000, if v3 (ix2 r 0) = BitVec.ofNat 32 g.val then v5 (ix2 r q) else 0 := by
  unfold k4_pay2
  refine (congrFun (shapeCast_self _ shapeCasts_S1024x64_S1024x64) (ix2 g q)).trans ((addf_apply _ _ (ix2 g q)).trans (congrArg (v15 (ix2 g q) + ·) ?_))
  refine (matmul_zero_apply dot_S4000x1024_S4000x64_S1024x64_0_0_1_1_n_n 4000 rfl rfl _ _ (ix2 g q) (fun r => ix2 r g) (fun r => ix2 r q)
    (fun _ => idx2_ext rfl rfl) (fun _ => idx2_ext rfl rfl)).trans (Finset.sum_congr rfl fun r _ => ?_)
  show ((((IntOp.cmpi .eq (broadcastTo S4000x1024 (shapeCast S4000x1 v3 shapeCasts_S4000x1_S4000x1) broadcasts_S4000x1_S4000x1024 (ix2 r g))
      (iota .tc S4000x1024 32 [1] iota_S4000x1024_d1_w32 (ix2 r g))).setWidth 32).toInt : ℝ) : EReal) * shapeCast S4000x64 v5 shapeCasts_S4000x64_S4000x64 (ix2 r q) = _
  rw [broadcastTo_apply _ broadcasts_S4000x1_S4000x1024 (ix2 r g) (ix2 r 0) (fun ax => match ax with | ⟨0, _⟩ => rfl | ⟨1, _⟩ => rfl),
    iota_single_apply .tc S4000x1024 32 1, shapeCast_self, shapeCast_self, pool_onehot_word]
  split
  · exact one_mul _
  · exact zero_mul _

-- One readout layer before its maximum with zero: the product plus the bias row.
theorem dense_apply {m k n : ℕ} (d : DotDims ⟨2, ![m, k]⟩ ⟨2, ![k, n]⟩ ⟨2, ![m, n]⟩) (hr : d.contr.rank = 1) (hs : d.contr.size ⟨0, by omega⟩ = k)
    (hl : ∀ j q, d.lhsIdx j q = ix2 (j 0) (contrEquiv1 d k hr hs q)) (hR : ∀ j q, d.rhsIdx j q = ix2 (contrEquiv1 d k hr hs q) (j 1))
    (hc : (⟨2, ![1, n]⟩ : Shape).ShapeCasts ⟨2, ![1, n]⟩) (hb : (⟨2, ![1, n]⟩ : Shape).Broadcasts ⟨2, ![m, n]⟩)
    (x : FVec Ideal ⟨2, ![m, k]⟩ .f32) (w : FVec Ideal ⟨2, ![k, n]⟩ .f32) (b : FVec Ideal ⟨2, ![1, n]⟩ .f32) (r : Fin m) (j : Fin n) :
    addf (matmul d none (truncf .bf16 x bitsLt_bf16_f32) (truncf .bf16 w bitsLt_bf16_f32) (constant (F := Ideal) ⟨2, ![m, n]⟩ .f32 0x00000000#32))
        (broadcastTo ⟨2, ![m, n]⟩ (shapeCast ⟨2, ![1, n]⟩ b hc) hb) (ix2 r j)
      = (∑ a : Fin k, x (ix2 r a) * w (ix2 a j)) + b (ix2 0 j) := by
  refine (addf_apply _ _ (ix2 r j)).trans (congrArg₂ (· + ·) ?_ ?_)
  · exact matmul_zero_apply d k hr hs _ _ (ix2 r j) (fun a => ix2 r a) (fun a => ix2 a j) (hl _) (hR _)
  · refine (broadcastTo_1b_ab_apply _ hb r j).trans ?_
    rw [shapeCast_self]

theorem pool_pay3_eq (v23 : Vec Ideal S1024x64 .f32) (v25 : Vec Ideal S64x32 .f32) (v28 : Vec Ideal S1x32 .f32) (v35 : Vec Ideal S32x16 .f32)
    (v38 : Vec Ideal S1x16 .f32) (v45 : Vec Ideal S16x1 .f32) (v48 : Vec Ideal S1x1 .f32) :
    k4_pay3 v23 v25 v28 v35 v38 v45 v48 = Spec.mlp v23 v25 v28 v35 v38 v45 v48 := by
  funext i
  obtain ⟨r, z, rfl⟩ : ∃ (r : Fin 1024) (z : Fin 1), i = ix2 r z := ⟨i 0, i 1, eq_ix2 i⟩
  unfold k4_pay3
  refine (dense_apply dot_S1024x16_S16x1_S1024x1_1_0_0_1_n_n rfl rfl (fun _ _ => idx2_ext rfl rfl) (fun _ _ => idx2_ext rfl rfl) _ _ _ v45 v48 r z).trans ?_
  show _ = (∑ c : Fin 16, Spec.ro2 v23 v25 v28 v35 v38 r c * v45 (ix2 c z)) + v48 (ix2 0 z)
  refine congrArg (· + v48 (ix2 0 z)) (Finset.sum_congr rfl fun c _ => congrArg (· * v45 (ix2 c z)) ?_)
  refine (maximumf_apply _ _ (ix2 r c)).trans (congrArg₂ max ?_ Ideal.ofBits_zero_f32)
  refine (dense_apply dot_S1024x32_S32x16_S1024x16_1_0_0_1_n_n rfl rfl (fun _ _ => idx2_ext rfl rfl) (fun _ _ => idx2_ext rfl rfl) _ _ _ v35 v38 r c).trans ?_
  refine congrArg (· + v38 (ix2 0 c)) (Finset.sum_congr rfl fun b _ => congrArg (· * v35 (ix2 b c)) ?_)
  refine (maximumf_apply _ _ (ix2 r b)).trans (congrArg₂ max ?_ Ideal.ofBits_zero_f32)
  exact dense_apply dot_S1024x64_S64x32_S1024x32_1_0_0_1_n_n rfl rfl (fun _ _ => idx2_ext rfl rfl) (fun _ _ => idx2_ext rfl rfl) _ _ v23 v25 v28 r b

theorem pool_idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

theorem pool_idx_whole : ∀ (t : Fin cfg4.N) (w : Fin cfg4.W), 2 ≤ w.val → ∀ a, (cfg4.win w).index t a = 0 :=
  (by decide +kernel : ∀ (t : Fin grid4.N) (w : Fin 9), _)

theorem pool_emb_whole (t : Fin cfg4.N) (w : Fin cfg4.W) (hw : 2 ≤ w.val) (y : ((cfg4.win w).xblock (cfg4.grid.coords t)).Idx)
    (a : Fin (cfg4.win w).shape.rank) : (((cfg4.win w).rect t).emb y a : ℕ) = y a :=
  (cfg4.win w).rect_emb_val_of_index_zero t a (pool_idx_whole t w hw a) y

variable (V : (c : Dev nD) → (b : Ref sig .tc) → Buf (Elt Ideal) ((c : Thread nD τ).loc b))

theorem pool_blk0_read (c : Dev nD) (t : Fin cfg4.N) (r : Fin 4000) (q : Fin 64) (h : 4000 * t.val + r.val < 200000) :
    Hand.iblk4 V c 0 t (ix2 r q) = V c (Pipeline.arrRef spec4 0) (ix2 ⟨4000 * t.val + r.val, h⟩ q) := by
  obtain ⟨e0, e1, -, -⟩ := pool_idx_facts t
  refine congrArg (V c (Pipeline.arrRef spec4 0)) (idx2_ext ?_ ?_)
  · show win4_0.index t (0 : Fin 2) * 4000 + 1 * r.val = 4000 * t.val + r.val; omega
  · show win4_0.index t (1 : Fin 2) * 64 + 1 * q.val = q.val; omega

theorem pool_blk1_read (c : Dev nD) (t : Fin cfg4.N) (r : Fin 4000) (h : 4000 * t.val + r.val < 200000) :
    Hand.iblk4 V c 1 t (ix2 r 0) = V c (Pipeline.arrRef spec4 1) (ix2 ⟨4000 * t.val + r.val, h⟩ 0) := by
  obtain ⟨-, -, e0, e1⟩ := pool_idx_facts t
  refine congrArg (V c (Pipeline.arrRef spec4 1)) (idx2_ext ?_ ?_)
  · show win4_1.index t (0 : Fin 2) * 4000 + 1 * r.val = 4000 * t.val + r.val; omega
  · show win4_1.index t (1 : Fin 2) * 1 + 1 * 0 = 0; omega

section
variable (h : Spec.NC.Idx → EReal) (batch : Spec.N1.Idx → BitVec 32) (g : Fin 1024) (q : Fin 64)

def poolTerm (m : ℕ) : EReal :=
  if hm : m < 200000 then (if batch (ix2 ⟨m, hm⟩ 0) = BitVec.ofNat 32 g.val then h (ix2 ⟨m, hm⟩ q) else 0) else 0

def poolPart (n : ℕ) : EReal := ∑ m ∈ Finset.range (4000 * n), poolTerm h batch g q m

theorem poolPart_succ (n : ℕ) :
    poolPart h batch g q (n + 1) = poolPart h batch g q n + ∑ r : Fin 4000, poolTerm h batch g q (4000 * n + r.val) := by
  unfold poolPart
  rw [Nat.mul_succ, Finset.sum_range_add, Fin.sum_univ_eq_sum_range (fun x => poolTerm h batch g q (4000 * n + x)) 4000]

theorem poolPart_all : poolPart h batch g q 50 = Spec.pool h batch (ix2 g q) := by
  unfold poolPart
  show ∑ m ∈ Finset.range 200000, poolTerm h batch g q m = ∑ n : Fin 200000, if batch (ix2 n 0) = BitVec.ofNat 32 g.val then h (ix2 n q) else 0
  rw [← Fin.sum_univ_eq_sum_range (fun m => poolTerm h batch g q m) 200000]
  exact Finset.sum_congr rfl fun n _ => dif_pos n.isLt
end

-- One more block of rows: the partial sums over the first 4000·t rows become those over the first 4000·(t+1).
theorem pool_step (c : Dev nD) (t : Fin cfg4.N) (g : Fin 1024) (q : Fin 64) (v : Vec Ideal S1024x64 .f32)
    (hv : v (ix2 g q) = poolPart (V c (Pipeline.arrRef spec4 0)) (V c (Pipeline.arrRef spec4 1)) g q t.val) :
    k4_pay2 (Hand.iblk4 V c 1 t) (Hand.iblk4 V c 0 t) v (ix2 g q)
      = poolPart (V c (Pipeline.arrRef spec4 0)) (V c (Pipeline.arrRef spec4 1)) g q (t.val + 1) := by
  rw [pool_pay2_apply, hv, poolPart_succ]
  refine congrArg (_ + ·) (Finset.sum_congr rfl fun r _ => ?_)
  have hlt : 4000 * t.val + r.val < 200000 := by have := t.isLt; have := r.isLt; have : cfg4.N = 50 := N_4; omega
  unfold poolTerm
  rw [dif_pos hlt, pool_blk0_read V c t r q hlt, pool_blk1_read V c t r hlt]

theorem pool_acc_apply (c : Dev nD) : ∀ (n : ℕ) (hn : n < cfg4.N) (g : Fin 1024) (q : Fin 64),
    Hand.acc4 V c n hn (ix2 g q) = poolPart (V c (Pipeline.arrRef spec4 0)) (V c (Pipeline.arrRef spec4 1)) g q (n + 1)
  | 0, hn, g, q => (congrFun (Hand.acc4_zero V c hn) _).trans (pool_step V c ⟨0, hn⟩ g q _
      ((pool_pay1_apply _).trans (by unfold poolPart; rw [Nat.mul_zero, Finset.range_zero, Finset.sum_empty])))
  | n + 1, hn, g, q => (congrFun (Hand.acc4_succ V c n hn) _).trans (pool_step V c ⟨n + 1, hn⟩ g q _
      (pool_acc_apply c n (Nat.lt_of_succ_lt hn) g q))

theorem pool_blk2_read (c : Dev nD) (t : Fin cfg4.N) : Hand.iblk4 V c 2 t = V c (Pipeline.arrRef spec4 2) :=
  funext fun y => congrArg _ (funext fun a => Fin.ext (pool_emb_whole t 2 (by decide) y a))
theorem pool_blk3_read (c : Dev nD) (t : Fin cfg4.N) : Hand.iblk4 V c 3 t = V c (Pipeline.arrRef spec4 3) :=
  funext fun y => congrArg _ (funext fun a => Fin.ext (pool_emb_whole t 3 (by decide) y a))
theorem pool_blk4_read (c : Dev nD) (t : Fin cfg4.N) : Hand.iblk4 V c 4 t = V c (Pipeline.arrRef spec4 4) :=
  funext fun y => congrArg _ (funext fun a => Fin.ext (pool_emb_whole t 4 (by decide) y a))
theorem pool_blk5_read (c : Dev nD) (t : Fin cfg4.N) : Hand.iblk4 V c 5 t = V c (Pipeline.arrRef spec4 5) :=
  funext fun y => congrArg _ (funext fun a => Fin.ext (pool_emb_whole t 5 (by decide) y a))
theorem pool_blk6_read (c : Dev nD) (t : Fin cfg4.N) : Hand.iblk4 V c 6 t = V c (Pipeline.arrRef spec4 6) :=
  funext fun y => congrArg _ (funext fun a => Fin.ext (pool_emb_whole t 6 (by decide) y a))
theorem pool_blk7_read (c : Dev nD) (t : Fin cfg4.N) : Hand.iblk4 V c 7 t = V c (Pipeline.arrRef spec4 7) :=
  funext fun y => congrArg _ (funext fun a => Fin.ext (pool_emb_whole t 7 (by decide) y a))

theorem pool_acc_last (c : Dev nD) (t : Fin cfg4.N) (ht : t.val = 49) :
    Hand.acc4 V c t.val t.isLt = Spec.pool (V c (Pipeline.arrRef spec4 0)) (V c (Pipeline.arrRef spec4 1)) := by
  funext i
  obtain ⟨g, q, rfl⟩ : ∃ (g : Fin 1024) (q : Fin 64), i = ix2 g q := ⟨i 0, i 1, eq_ix2 i⟩
  obtain ⟨n, hn⟩ := t
  subst ht
  exact (pool_acc_apply V c 49 hn g q).trans (poolPart_all _ _ g q)

theorem pool_cover (i : S1024x1.Idx) : ∃ t : Fin cfg4.N, (cfg4.win 8).flush t = true ∧ i ∈ ((cfg4.win 8).blk t).view.set := by
  have h49 : 49 < cfg4.N := by have : cfg4.N = 50 := N_4; omega
  refine ⟨⟨49, h49⟩, (flush4_8 ⟨49, h49⟩).mpr rfl, ?_⟩
  show i ∈ ((View.whole main_v100).slice (win4_8.rect ⟨49, h49⟩)).set
  rw [View.set_slice_whole, Rect.mem_set_unit]
  intro a
  show win4_8.index ⟨49, h49⟩ a * S1024x1.size a ≤ (i a).val ∧ (i a).val < win4_8.index ⟨49, h49⟩ a * S1024x1.size a + S1024x1.size a
  have := (i a).isLt
  rw [show win4_8.index ⟨49, h49⟩ a = 0 from pool_idx_whole ⟨49, h49⟩ 8 (by decide) a]
  omega

theorem pool_arr (V : (c : Dev nD) → (b : Ref sig .tc) → Buf (Elt Ideal) ((c : Thread nD τ).loc b)) (c : Dev nD) :
    (Hand.dat4 (F := Ideal) V c).arrAt 8 cfg4.N
      = Spec.mlp (Spec.pool (V c (Pipeline.arrRef spec4 0)) (V c (Pipeline.arrRef spec4 1))) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) :=
  (Hand.dat4 (F := Ideal) V c).arrAt_eq_of_cover 8 _ (fun t hf => by
    have ht : t.val = 49 := by have h := (flush4_8 t).mp hf; have := t.isLt; have : cfg4.N = 50 := N_4; omega
    show (cfg4.win 8).cut (grid4.coords t) ((Hand.dat4 (F := Ideal) V c).after 8 t) = _
    rw [Hand.after4_8, Hand.outLast4_eq, pool_pay3_eq, congr (congr (congr (congr (congr (congr (congrArg Spec.mlp (pool_acc_last V c t ht))
      (pool_blk2_read V c t)) (pool_blk3_read V c t)) (pool_blk4_read V c t)) (pool_blk5_read V c t)) (pool_blk6_read V c t)) (pool_blk7_read V c t)]
    funext y
    show Spec.mlp _ _ _ _ _ _ _ y = Spec.mlp _ _ _ _ _ _ _ (((cfg4.win 8).blk t).view.emb y)
    exact congrArg _ (funext fun a => Fin.ext (pool_emb_whole t 8 (by decide) y a).symm)) pool_cover

end Cert.KernelIdeal.HandValue

end
-- ==== Proof.KernelValue.lean ====
import proofs.«423572_j60988535604051_1_alg».proof.Proof.RunAll
import proofs.«423572_j60988535604051_1_alg».proof.Proof.ConvValue0
import proofs.«423572_j60988535604051_1_alg».proof.Proof.ConvValue1
import proofs.«423572_j60988535604051_1_alg».proof.Proof.ConvValue2
import proofs.«423572_j60988535604051_1_alg».proof.Proof.ConvValue3
import proofs.«423572_j60988535604051_1_alg».proof.Proof.PoolValue
import proofs.«423572_j60988535604051_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HandValue

open Cert.KernelIdeal Cert.KernelIdeal.Gen
open Idealize.ShloMosaic Idealize.ShloMosaic.TcCoe Idealize.SL.Sem Idealize.ShloMosaic.StableHlo
open Idealize.ShloMosaic.ValueIdx

theorem wslice_eq (l : Fin 4) (x : S4x64x64.Idx → EReal) (hs : S4x64x64.Slices ![l.val, 0, 0] S1x64x64) :
    shapeCast S64x64 (extractStridedSlice S1x64x64 ![l.val, 0, 0] x hs) shapeCasts_S1x64x64_S64x64 = Cert.Spec.wslice x l :=
  funext fun i => (congrArg _ (eq_ix2 i)).trans <| (shapeCast_1ab_ab_apply _ _ (i 0) (i 1)).trans <|
    extractStridedSlice_apply _ x hs _ (ix3 l (i 0) (i 1)) fun a => match a with
      | ⟨0, _⟩ => rfl
      | ⟨1, _⟩ => (Nat.zero_add _).symm
      | ⟨2, _⟩ => (Nat.zero_add _).symm

theorem brow_eq (l : Fin 4) (x : S4x64.Idx → EReal) (hs : S4x64.Slices ![l.val, 0] S1x64) :
    shapeCast S1x64 (shapeCast S64 (extractStridedSlice S1x64 ![l.val, 0] x hs) shapeCasts_S1x64_S64) shapeCasts_S64_S1x64
      = Cert.Spec.brow x l :=
  funext fun i => (congrArg _ (eq_ix2 i)).trans <| (shapeCast_a_1a_apply _ _ (i 0) (i 1)).trans <|
    (shapeCast_1a_a_apply _ _ (i 1)).trans <| slice2_axis0_apply l.val x hs 0 (i 1) l rfl

theorem col_eq (x : S200000.Idx → BitVec 32) : shapeCast S200000x1 x shapeCasts_S200000_S200000x1 = Cert.Spec.col x :=
  funext fun i => shapeCast_apply x _ i (ix1 (i 0)) (by
    have h1 : (i 1).val < 1 := (i 1).isLt
    rewrite [Shape.rowMajor_val_one, Shape.rowMajor_val_two]
    show (i 0).val = (i 0).val * 1 + (i 1).val
    omega)

theorem row_eq {n : Nat} (x : (⟨1, ![n]⟩ : Shape).Idx → EReal) (h : (⟨1, ![n]⟩ : Shape).ShapeCasts ⟨2, ![1, n]⟩) :
    shapeCast (⟨2, ![1, n]⟩ : Shape) x h = Cert.Spec.row x :=
  funext fun i => (congrArg _ (eq_ix2 i)).trans (shapeCast_a_1a_apply x h (i 0) (i 1))

def srcK (x1 : S2x3200000.Idx → BitVec 32) : S3200000.Idx → BitVec 32 :=
  shapeCast _ (extractStridedSlice S1x3200000 ![0, 0] x1 slices_S2x3200000_S1x3200000_0_0) shapeCasts_S1x3200000_S3200000

def dstK (x1 : S2x3200000.Idx → BitVec 32) : S3200000.Idx → BitVec 32 :=
  shapeCast _ (extractStridedSlice S1x3200000 ![1, 0] x1 slices_S2x3200000_S1x3200000_1_0) shapeCasts_S1x3200000_S3200000

def aggOf (src dst : S3200000.Idx → BitVec 32) (h : S200000x64.Idx → EReal) : S200000x64.Idx → EReal :=
  Host.scatterAdd (F := Ideal) scatter_S200000x64_S3200000x1_S3200000x64_1_0_0_1
    (broadcastInDim S200000x64 ![] bcast_S_S200000x64 (constant (F := Ideal) S_ .f32 0x00000000#32))
    (broadcastInDim S3200000x1 ![0] bcast_S3200000_S3200000x1_0 dst)
    (Host.gather gather_S200000x64_S3200000x1_S3200000x64_1_0_n_n_0_1_164 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 200000#32))) src)))

def aggK (x1 : S2x3200000.Idx → BitVec 32) (h : S200000x64.Idx → EReal) : S200000x64.Idx → EReal := aggOf (srcK x1) (dstK x1) h

def embK (x0 : S200000x1.Idx → BitVec 32) (x4 : S28x64.Idx → EReal) : S200000x64.Idx → EReal :=
  Host.gather gather_S28x64_S200000x1_S200000x64_1_0_n_n_0_1_164 x4
    (broadcastInDim S200000x1 ![0] bcast_S200000_S200000x1_0
      (select (cmpi .slt (shapeCast _ x0 shapeCasts_S200000x1_S200000) (broadcastInDim S200000 ![] bcast_S_S200000 (constantI S_ 32 0#32)))
        (addi (shapeCast _ x0 shapeCasts_S200000x1_S200000) (broadcastInDim S200000 ![] bcast_S_S200000 (constantI S_ 32 28#32)))
        (shapeCast _ x0 shapeCasts_S200000x1_S200000)))

variable (m : (ℓ : Loc nD τ sig) → Buf (Elt Ideal) ℓ) (c : Dev nD)

-- The contents of an argument of the program as the run starts.
private abbrev arg (r : Ref sig .tc) := m ((c : Thread nD τ).loc r)

def feat : ℕ → S200000x64.Idx → EReal
  | 0 => embK (arg m c main_arg0) (arg m c main_arg4)
  | k + 1 => if hk : k < 4 then Cert.Spec.layer (aggK (arg m c main_arg1)) (arg m c main_arg6) (arg m c main_arg7) (arg m c main_arg8) (arg m c main_arg9) ⟨k, hk⟩ (feat k) else feat k

theorem feat_succ (k : ℕ) (hk : k < 4) : feat m c (k + 1) = Cert.Spec.layer (aggK (arg m c main_arg1)) (arg m c main_arg6) (arg m c main_arg7) (arg m c main_arg8) (arg m c main_arg9) ⟨k, hk⟩ (feat m c k) := by
  show (if hk : k < 4 then _ else _) = _
  rw [dif_pos hk]

theorem W1_src : Hand.W1 m c (Proc.devRef .tc main_v9) = srcK (arg m c main_arg1) := by
  show StableHlo.after hostOps0 (Hand.W0 m c) (Proc.devRef .tc main_v9) = _
  after_results; rfl
theorem W1_dst : Hand.W1 m c (Proc.devRef .tc main_v11) = dstK (arg m c main_arg1) := by
  show StableHlo.after hostOps0 (Hand.W0 m c) (Proc.devRef .tc main_v11) = _
  after_results; rfl
theorem W2_src : Hand.W2 m c (Proc.devRef .tc main_v9) = srcK (arg m c main_arg1) := (Hand.W2_of_ne m c main_v9 (by decide)).trans (W1_src m c)
theorem W2_dst : Hand.W2 m c (Proc.devRef .tc main_v11) = dstK (arg m c main_arg1) := (Hand.W2_of_ne m c main_v11 (by decide)).trans (W1_dst m c)
theorem W4_src : Hand.W4 m c (Proc.devRef .tc main_v9) = srcK (arg m c main_arg1) := (Hand.W4_keep m c main_v9 (by decide) (by decide)).trans (W2_src m c)
theorem W4_dst : Hand.W4 m c (Proc.devRef .tc main_v11) = dstK (arg m c main_arg1) := (Hand.W4_keep m c main_v11 (by decide) (by decide)).trans (W2_dst m c)
theorem W6_src : Hand.W6 m c (Proc.devRef .tc main_v9) = srcK (arg m c main_arg1) := (Hand.W6_keep m c main_v9 (by decide) (by decide)).trans (W4_src m c)
theorem W6_dst : Hand.W6 m c (Proc.devRef .tc main_v11) = dstK (arg m c main_arg1) := (Hand.W6_keep m c main_v11 (by decide) (by decide)).trans (W4_dst m c)

set_option maxHeartbeats 1000000 in
theorem W2_out : Hand.W2 m c (Proc.devRef .tc main_v32) = feat m c 1 := by
  refine ((Hand.W2_arr m c 6).trans (conv_arr0 (Hand.V1 m) c)).trans ?_
  rw [feat_succ m c 0 (by decide)]
  refine congr (congr (congr (congr (congr (congrArg Cert.Spec.conv ?_) ?_) ?_) ?_) ?_) ?_
  · show StableHlo.after hostOps0 (Hand.W0 m c) (Proc.devRef .tc main_v7) = _
    after_results; rfl
  · show StableHlo.after hostOps0 (Hand.W0 m c) (Proc.devRef .tc main_v21) = _
    after_results_simp; rfl
  · show StableHlo.after hostOps0 (Hand.W0 m c) (Proc.devRef .tc main_v23) = _
    after_results; exact wslice_eq 0 _ _
  · show StableHlo.after hostOps0 (Hand.W0 m c) (Proc.devRef .tc main_v30) = _
    after_results; exact brow_eq 0 _ _
  · show StableHlo.after hostOps0 (Hand.W0 m c) (Proc.devRef .tc main_v27) = _
    after_results; exact wslice_eq 0 _ _
  · show StableHlo.after hostOps0 (Hand.W0 m c) (Proc.devRef .tc main_v31) = _
    after_results; exact brow_eq 0 _ _

set_option maxHeartbeats 1000000 in
theorem W4_out : Hand.W4 m c (Proc.devRef .tc main_v53) = feat m c 2 := by
  refine ((Hand.W4_arr m c 6).trans (conv_arr1 (Hand.V3 m) c)).trans ?_
  rw [feat_succ m c 1 (by decide)]
  refine congr (congr (congr (congr (congr (congrArg Cert.Spec.conv ?_) ?_) ?_) ?_) ?_) ?_
  · exact (StableHlo.after_of_writes_sub hostOps1 _ hostOps1_writes (by decide)).trans (W2_out m c)
  · show StableHlo.after hostOps1 (Hand.W2 m c) (Proc.devRef .tc main_v42) = _
    after_results_simp
    rw [W2_src m c, W2_dst m c, W2_out m c]; rfl
  · show StableHlo.after hostOps1 (Hand.W2 m c) (Proc.devRef .tc main_v44) = _
    after_results; rw [Hand.W2_arg m c main_arg6 (by decide)]; exact wslice_eq 1 _ _
  · show StableHlo.after hostOps1 (Hand.W2 m c) (Proc.devRef .tc main_v51) = _
    after_results; rw [Hand.W2_arg m c main_arg7 (by decide)]; exact brow_eq 1 _ _
  · show StableHlo.after hostOps1 (Hand.W2 m c) (Proc.devRef .tc main_v48) = _
    after_results; rw [Hand.W2_arg m c main_arg8 (by decide)]; exact wslice_eq 1 _ _
  · show StableHlo.after hostOps1 (Hand.W2 m c) (Proc.devRef .tc main_v52) = _
    after_results; rw [Hand.W2_arg m c main_arg9 (by decide)]; exact brow_eq 1 _ _

set_option maxHeartbeats 1000000 in
theorem W6_out : Hand.W6 m c (Proc.devRef .tc main_v74) = feat m c 3 := by
  refine ((Hand.W6_arr m c 6).trans (conv_arr2 (Hand.V5 m) c)).trans ?_
  rw [feat_succ m c 2 (by decide)]
  refine congr (congr (congr (congr (congr (congrArg Cert.Spec.conv ?_) ?_) ?_) ?_) ?_) ?_
  · exact (StableHlo.after_of_writes_sub hostOps2 _ hostOps2_writes (by decide)).trans (W4_out m c)
  · show StableHlo.after hostOps2 (Hand.W4 m c) (Proc.devRef .tc main_v63) = _
    after_results_simp
    rw [W4_src m c, W4_dst m c, W4_out m c]; rfl
  · show StableHlo.after hostOps2 (Hand.W4 m c) (Proc.devRef .tc main_v65) = _
    after_results; rw [Hand.W4_arg m c main_arg6 (by decide)]; exact wslice_eq 2 _ _
  · show StableHlo.after hostOps2 (Hand.W4 m c) (Proc.devRef .tc main_v72) = _
    after_results; rw [Hand.W4_arg m c main_arg7 (by decide)]; exact brow_eq 2 _ _
  · show StableHlo.after hostOps2 (Hand.W4 m c) (Proc.devRef .tc main_v69) = _
    after_results; rw [Hand.W4_arg m c main_arg8 (by decide)]; exact wslice_eq 2 _ _
  · show StableHlo.after hostOps2 (Hand.W4 m c) (Proc.devRef .tc main_v73) = _
    after_results; rw [Hand.W4_arg m c main_arg9 (by decide)]; exact brow_eq 2 _ _

set_option maxHeartbeats 1000000 in
theorem W8_out : Hand.W8 m c (Proc.devRef .tc main_v95) = feat m c 4 := by
  refine ((Hand.W8_arr m c 6).trans (conv_arr3 (Hand.V7 m) c)).trans ?_
  rw [feat_succ m c 3 (by decide)]
  refine congr (congr (congr (congr (congr (congrArg Cert.Spec.conv ?_) ?_) ?_) ?_) ?_) ?_
  · exact (StableHlo.after_of_writes_sub hostOps3 _ hostOps3_writes (by decide)).trans (W6_out m c)
  · show StableHlo.after hostOps3 (Hand.W6 m c) (Proc.devRef .tc main_v84) = _
    after_results_simp
    rw [W6_src m c, W6_dst m c, W6_out m c]; rfl
  · show StableHlo.after hostOps3 (Hand.W6 m c) (Proc.devRef .tc main_v86) = _
    after_results; rw [Hand.W6_arg m c main_arg6 (by decide)]; exact wslice_eq 3 _ _
  · show StableHlo.after hostOps3 (Hand.W6 m c) (Proc.devRef .tc main_v93) = _
    after_results; rw [Hand.W6_arg m c main_arg7 (by decide)]; exact brow_eq 3 _ _
  · show StableHlo.after hostOps3 (Hand.W6 m c) (Proc.devRef .tc main_v90) = _
    after_results; rw [Hand.W6_arg m c main_arg8 (by decide)]; exact wslice_eq 3 _ _
  · show StableHlo.after hostOps3 (Hand.W6 m c) (Proc.devRef .tc main_v94) = _
    after_results; rw [Hand.W6_arg m c main_arg9 (by decide)]; exact brow_eq 3 _ _

theorem W9_h : Hand.W9 m c (Proc.devRef .tc main_v95) = feat m c 4 :=
  (StableHlo.after_of_writes_sub hostOps4 _ hostOps4_writes (by decide)).trans (W8_out m c)
theorem W9_ids : Hand.W9 m c (Proc.devRef .tc main_v96) = Cert.Spec.col (arg m c main_arg3) := by
  show StableHlo.after hostOps4 (Hand.W8 m c) (Proc.devRef .tc main_v96) = _
  after_results
  rw [Hand.W8_arg m c main_arg3 (by decide)]; exact col_eq _
theorem W9_b1 : Hand.W9 m c (Proc.devRef .tc main_v97) = Cert.Spec.row (arg m c main_arg11) := by
  show StableHlo.after hostOps4 (Hand.W8 m c) (Proc.devRef .tc main_v97) = _
  after_results
  rw [Hand.W8_arg m c main_arg11 (by decide)]; exact row_eq _ _
theorem W9_b2 : Hand.W9 m c (Proc.devRef .tc main_v98) = Cert.Spec.row (arg m c main_arg13) := by
  show StableHlo.after hostOps4 (Hand.W8 m c) (Proc.devRef .tc main_v98) = _
  after_results
  rw [Hand.W8_arg m c main_arg13 (by decide)]; exact row_eq _ _
theorem W9_b3 : Hand.W9 m c (Proc.devRef .tc main_v99) = Cert.Spec.row (arg m c main_arg15) := by
  show StableHlo.after hostOps4 (Hand.W8 m c) (Proc.devRef .tc main_v99) = _
  after_results
  rw [Hand.W8_arg m c main_arg15 (by decide)]; exact row_eq _ _

theorem feat_four : feat m c 4 = Cert.Spec.feats (aggK (arg m c main_arg1)) (arg m c main_arg6) (arg m c main_arg7) (arg m c main_arg8) (arg m c main_arg9) (embK (arg m c main_arg0) (arg m c main_arg4)) := by
  rw [feat_succ m c 3 (by decide), feat_succ m c 2 (by decide), feat_succ m c 1 (by decide), feat_succ m c 0 (by decide)]
  rfl

theorem kernel_result : Hand.W10 m c (Proc.devRef .tc main_v100)
    = Cert.Spec.result (aggK (m ((c : Thread nD τ).loc main_arg1))) (embK (m ((c : Thread nD τ).loc main_arg0)) (m ((c : Thread nD τ).loc main_arg4))) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine ((Hand.W10_arr m c 8).trans (pool_arr (Hand.V9 m) c)).trans ?_
  show Cert.Spec.mlp (Cert.Spec.pool (Hand.W9 m c (Proc.devRef .tc main_v95)) (Hand.W9 m c (Proc.devRef .tc main_v96))) (Hand.W9 m c (Proc.devRef .tc main_arg10)) (Hand.W9 m c (Proc.devRef .tc main_v97)) (Hand.W9 m c (Proc.devRef .tc main_arg12)) (Hand.W9 m c (Proc.devRef .tc main_v98)) (Hand.W9 m c (Proc.devRef .tc main_arg14)) (Hand.W9 m c (Proc.devRef .tc main_v99)) = _
  rw [W9_h m c, W9_ids m c, W9_b1 m c, W9_b2 m c, W9_b3 m c, Hand.W9_arg m c main_arg10 (by decide), Hand.W9_arg m c main_arg12 (by decide), Hand.W9_arg m c main_arg14 (by decide), feat_four m c]
  rfl

end Cert.KernelIdeal.HandValue

end
-- ==== Proof.RefRun.lean ====
import proofs.«423572_j60988535604051_1_alg».proof.Proof.Gen.ReferenceIdeal.Run
import proofs.«423572_j60988535604051_1_alg».proof.Proof.Gen.ReferenceIdeal.Read
-- ==== Proof.RefValue.lean ====
import proofs.«423572_j60988535604051_1_alg».proof.Proof.RefRun
import proofs.«423572_j60988535604051_1_alg».proof.Proof.Spec
import Idealize.ShloMosaic.Lib.StackMember

noncomputable section

namespace Cert.ReferenceIdeal.HandValue

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.StackMember

def embR (x0 : (⟨S200000x1, .i32⟩ : BufTy).Contents (Elt Ideal)) (x4 : (⟨S28x64, .f32⟩ : BufTy).Contents (Elt Ideal)) : S200000x64.Idx → EReal :=
  Read.val_main_v7 (F := Ideal) x0 x4

def aggR (x1 : (⟨S2x3200000, .i32⟩ : BufTy).Contents (Elt Ideal)) (h : S200000x64.Idx → EReal) : S200000x64.Idx → EReal :=
  Host.scatterAdd (F := Ideal) (φ := .f32) scatter_S200000x64_S3200000x1_S3200000x64_1_0_0_1 (Read.val_main_v26 (F := Ideal)) (Read.val_main_v27 (F := Ideal) x1)
    (Host.gather gather_S200000x64_S3200000x1_S3200000x64_1_0_n_n_0_1_164 h (Read.val_main_v24 (F := Ideal) x1))

-- Two functions on a rank-2 index set that agree at every pair of coordinates are equal.
theorem ext2 {m n : Nat} {α : Type} {f g : (⟨2, ![m, n]⟩ : Shape).Idx → α} (h : ∀ a b, f (ix2 a b) = g (ix2 a b)) : f = g :=
  funext fun i => by rw [eq_ix2 i]; exact h _ _

theorem zero_bc {s : Shape} (h : S_.BroadcastsInDim s ![]) (i : s.Idx) :
    broadcastInDim s ![] h (constant (F := Ideal) S_ .f32 0x00000000#32) i = (0 : EReal) :=
  Ideal.ofBits_zero_f32

-- A vector made a one-row matrix and repeated down m rows reads, in any row, its own entry.
theorem row_eq {m n : Nat} {α : Type} (x : (⟨1, ![n]⟩ : Shape).Idx → α) (h1 : (⟨1, ![n]⟩ : Shape).BroadcastsInDim ⟨2, ![1, n]⟩ ![1])
    (h2 : (⟨2, ![1, n]⟩ : Shape).BroadcastsInDim ⟨2, ![m, n]⟩ ![0, 1]) (r : Fin m) (c : Fin n) :
    broadcastInDim ⟨2, ![m, n]⟩ ![0, 1] h2 (broadcastInDim ⟨2, ![1, n]⟩ ![1] h1 x) (ix2 r c) = x (ix1 c) := by
  have hc := c.isLt
  have e : c.val = if n = 1 then 0 else c.val := by split <;> omega
  rw [broadcastInDim_apply _ h2 _ _ (ix2 0 c) (fun a => by
        match a with
        | ⟨0, _⟩ => exact (if_pos rfl).symm
        | ⟨1, _⟩ => exact e),
    broadcastInDim_apply _ h1 _ _ (ix1 c) (fun a => by
        match a with
        | ⟨0, _⟩ => exact e)]

-- Layer l's block of a stack of four, cut out as a stack of one and its unit axis dropped, is the stack read at l.
theorem wslice_eq (l : Fin 4) (x : FVec Ideal S4x64x64 .f32) (hs : S4x64x64.Slices ![l.val, 0, 0] S1x64x64) :
    shapeCast S64x64 (extractStridedSlice S1x64x64 ![l.val, 0, 0] x hs) shapeCasts_S1x64x64_S64x64 = Spec.wslice x l :=
  ext2 fun j k => (shapeCast_dropUnit_apply ![64, 64] _ _ _).trans <| extractStridedSlice_apply _ x hs _ (ix3 l j k) fun a => by
    match a with
    | ⟨0, _⟩ => rfl
    | ⟨1, _⟩ => exact (Nat.zero_add _).symm
    | ⟨2, _⟩ => exact (Nat.zero_add _).symm

theorem brow_eq (l : Fin 4) (x : FVec Ideal S4x64 .f32) (hs : S4x64.Slices ![l.val, 0] S1x64) (n : Fin 200000) (q : Fin 64) :
    broadcastInDim S200000x64 ![0, 1] bcast_S1x64_S200000x64_0_1 (broadcastInDim S1x64 ![1] bcast_S64_S1x64_1
      (shapeCast S64 (extractStridedSlice S1x64 ![l.val, 0] x hs) shapeCasts_S1x64_S64)) (ix2 n q) = Spec.brow x l (ix2 0 q) := by
  rw [row_eq, shapeCast_dropUnit_apply ![64]]
  exact extractStridedSlice_apply _ x hs _ (ix2 l q) fun a => by
    match a with
    | ⟨0, _⟩ => rfl
    | ⟨1, _⟩ => exact (Nat.zero_add _).symm

-- X · W + b read at (r, c), the bias row b repeated down the rows: the sum over the contracted coordinate plus b's entry.
theorem dense {m k n : Nat} {X X' : FVec Ideal ⟨2, ![m, k]⟩ .f32} {W W' : FVec Ideal ⟨2, ![k, n]⟩ .f32} {B : FVec Ideal ⟨2, ![m, n]⟩ .f32}
    {b : (⟨2, ![1, n]⟩ : Shape).Idx → EReal} (hX : X = X') (hW : W = W') (hB : ∀ r c, B (ix2 r c) = b (ix2 0 c)) :
    addf (Host.dotGeneral (DotDims.plain m k n) none X W) B = fun i => (∑ j : Fin k, X' (ix2 (i 0) j) * W' (ix2 j (i 1))) + b (ix2 0 (i 1)) := by
  subst hX hW
  exact ext2 fun r c => by rw [addf_apply, dotGeneral_plain_apply, hB]; rfl

theorem relu {s : Shape} {Y Y' Z : FVec Ideal s .f32} (hY : Y = Y') (hZ : ∀ i, Z i = 0) : maximumf Y Z = fun i => max (Y' i) 0 :=
  hY ▸ funext fun i => by rw [maximumf_apply, hZ]

theorem conv_chain {h a B1 Z B2 : FVec Ideal S200000x64 .f32} {W1 W2 : FVec Ideal S64x64 .f32} {w1 w2 : Spec.CC.Idx → EReal}
    {b1 b2 : Spec.RC.Idx → EReal} (hW1 : W1 = w1) (hB1 : ∀ n q, B1 (ix2 n q) = b1 (ix2 0 q)) (hZ : ∀ i, Z i = 0)
    (hW2 : W2 = w2) (hB2 : ∀ n q, B2 (ix2 n q) = b2 (ix2 0 q)) :
    addf (Host.dotGeneral (DotDims.plain 200000 64 64) none (maximumf (addf (Host.dotGeneral (DotDims.plain 200000 64 64) none
      (addf h a) W1) B1) Z) W2) B2 = Spec.conv h a w1 b1 w2 b2 :=
  dense (relu (dense rfl hW1 hB1) hZ) hW2 hB2

theorem mlp_chain {g : FVec Ideal S1024x64 .f32} {x10 : FVec Ideal S64x32 .f32} {x12 : FVec Ideal S32x16 .f32} {x14 : FVec Ideal S16x1 .f32}
    {B1 Z1 : FVec Ideal S1024x32 .f32} {B2 Z2 : FVec Ideal S1024x16 .f32} {B3 : FVec Ideal S1024x1 .f32}
    {b1 : Spec.R32.Idx → EReal} {b2 : Spec.R16.Idx → EReal} {b3 : Spec.R1.Idx → EReal}
    (hB1 : ∀ r b, B1 (ix2 r b) = b1 (ix2 0 b)) (hZ1 : ∀ i, Z1 i = 0) (hB2 : ∀ r c, B2 (ix2 r c) = b2 (ix2 0 c)) (hZ2 : ∀ i, Z2 i = 0)
    (hB3 : ∀ r e, B3 (ix2 r e) = b3 (ix2 0 e)) :
    addf (Host.dotGeneral (DotDims.plain 1024 16 1) none (maximumf (addf (Host.dotGeneral (DotDims.plain 1024 32 16) none
      (maximumf (addf (Host.dotGeneral (DotDims.plain 1024 64 32) none g x10) B1) Z1) x12) B2) Z2) x14) B3 = Spec.mlp g x10 b1 x12 b2 x14 b3 :=
  dense (relu (dense (relu (dense rfl rfl hB1) hZ1) rfl hB2) hZ2) rfl hB3

abbrev poolDims : ScatterDims S1024x64 S200000x1 S200000x64 := scatter_S1024x64_S200000x1_S200000x64_1_0_0_1

-- An update lands on the element whose every coordinate is its window start plus its window coordinate, when there is one.
theorem resultIdx?_eq_some_iff {s si u : Shape} (d : ScatterDims s si u) (j : u.Idx) {w : Nat} (idx : IVec si w) (i : s.Idx) :
    d.resultIdx? j idx = some i ↔ ∀ a, d.start j idx a + d.window j a = ((i a).val : Int) := by
  unfold ScatterDims.resultIdx?
  split
  · rename_i hc
    rw [Option.some.injEq]
    constructor
    · rintro rfl a
      have := hc a
      show _ = (((_ : Int).toNat : Nat) : Int)
      omega
    · intro h
      funext a
      have := h a
      exact Fin.ext (by show (_ : Int).toNat = _; omega)
  · rename_i hc
    refine ⟨fun he => absurd he (by simp), fun h => absurd (fun a => ?_) hc⟩
    have := h a
    have := (i a).isLt
    omega

theorem pool_start0 (j : S200000x64.Idx) (idx : IVec S200000x1 32) :
    poolDims.start j idx 0 = (idx (ix2 (j 0) 0 : S200000x1.Idx)).toInt := by
  unfold ScatterDims.start
  rw [dif_pos (show (0 : Fin S1024x64.rank) ∈ poolDims.scatterDimsToOperandDims from List.mem_singleton.mpr rfl)]
  refine congrArg (fun k => (idx k).toInt) (funext fun b => Fin.ext ?_)
  match b with
  | ⟨0, _⟩ => rfl
  | ⟨1, _⟩ => rfl

-- Below 2³¹ the signed and the unsigned reading of a word agree, so a small k is the reading of one word only.
theorem toInt_eq_small (v : BitVec 32) (k : Nat) (hk : k < 1024) : v.toInt = (k : Int) ↔ v = BitVec.ofNat 32 k := by
  rw [← BitVec.toNat_inj, BitVec.toNat_ofNat, BitVec.toInt_eq_toNat_cond, Nat.mod_eq_of_lt (by omega)]
  have := v.isLt
  split <;> omega

-- The row an update lands on is its node's id word read signed, the column is the update's own.
theorem pool_lands_iff (n : Fin 200000) (b : Fin 64) (idx : IVec S200000x1 32) (g : Fin 1024) (q : Fin 64) :
    poolDims.resultIdx? (ix2 n b : S200000x64.Idx) idx = some (ix2 g q : S1024x64.Idx) ↔
      (idx (ix2 n 0 : S200000x1.Idx) = BitVec.ofNat 32 g.val ∧ b = q) := by
  have s0 : poolDims.start (ix2 n b : S200000x64.Idx) idx 0 = (idx (ix2 n 0 : S200000x1.Idx)).toInt := pool_start0 _ _
  rw [resultIdx?_eq_some_iff, ← toInt_eq_small _ _ g.isLt, Fin.ext_iff]
  show (∀ a : Fin 2, _) ↔ _
  rw [Fin.forall_fin_two]
  show poolDims.start (ix2 n b : S200000x64.Idx) idx 0 + (0 : Nat) = (g.val : Int) ∧ (0 : Int) + (b.val : Nat) = (q.val : Int) ↔ _
  rw [s0]
  omega

theorem pool_chain (z : FVec Ideal S1024x64 .f32) (hz : ∀ i, z i = 0) (idx : IVec S200000x1 32)
    (b : Spec.Nn.Idx → BitVec 32) (hidx : idx = Spec.col b) (h : FVec Ideal S200000x64 .f32) :
    Host.scatterAdd scatter_S1024x64_S200000x1_S200000x64_1_0_0_1 z idx h = Spec.pool h (Spec.col b) := by
  subst hidx
  refine ext2 fun g q => ?_
  show z _ + ∑ j ∈ Finset.univ.filter (fun j => poolDims.resultIdx? j (Spec.col b) = some (ix2 g q)), h j = _
  rw [hz, zero_add, Finset.sum_filter, sum_idx2]
  refine Finset.sum_congr rfl fun n _ => ?_
  simp only [pool_lands_iff, ite_and]
  split
  · exact (Finset.sum_ite_eq' _ q _).trans (if_pos (Finset.mem_univ _))
  · exact Finset.sum_const_zero

variable (x0 : IVec S200000x1 32) (x1 : IVec S2x3200000 32) (x3 : IVec S200000 32) (x4 : FVec Ideal S28x64 .f32)
  (x6 x8 : FVec Ideal S4x64x64 .f32) (x7 x9 : FVec Ideal S4x64 .f32) (x10 : FVec Ideal S64x32 .f32) (x11 : FVec Ideal S32 .f32)
  (x12 : FVec Ideal S32x16 .f32) (x13 : FVec Ideal S16 .f32) (x14 : FVec Ideal S16x1 .f32) (x15 : FVec Ideal S1 .f32)

-- Each layer adds to its input the same neighbour sum of it and applies the transform at its own slice of the parameters.
theorem layer0 : Read.val_main_v46 (F := Ideal) x0 x1 x4 x6 x7 x8 x9 = Spec.layer (aggR x1) x6 x7 x8 x9 0 (embR x0 x4) :=
  conv_chain (wslice_eq 0 x6 _) (brow_eq 0 x7 _) (zero_bc _) (wslice_eq 0 x8 _) (brow_eq 0 x9 _)
theorem layer1 : Read.val_main_v74 (F := Ideal) x0 x1 x4 x6 x7 x8 x9 = Spec.layer (aggR x1) x6 x7 x8 x9 1 (Read.val_main_v46 (F := Ideal) x0 x1 x4 x6 x7 x8 x9) :=
  conv_chain (wslice_eq 1 x6 _) (brow_eq 1 x7 _) (zero_bc _) (wslice_eq 1 x8 _) (brow_eq 1 x9 _)
theorem layer2 : Read.val_main_v102 (F := Ideal) x0 x1 x4 x6 x7 x8 x9 = Spec.layer (aggR x1) x6 x7 x8 x9 2 (Read.val_main_v74 (F := Ideal) x0 x1 x4 x6 x7 x8 x9) :=
  conv_chain (wslice_eq 2 x6 _) (brow_eq 2 x7 _) (zero_bc _) (wslice_eq 2 x8 _) (brow_eq 2 x9 _)
theorem layer3 : Read.val_main_v130 (F := Ideal) x0 x1 x4 x6 x7 x8 x9 = Spec.layer (aggR x1) x6 x7 x8 x9 3 (Read.val_main_v102 (F := Ideal) x0 x1 x4 x6 x7 x8 x9) :=
  conv_chain (wslice_eq 3 x6 _) (brow_eq 3 x7 _) (zero_bc _) (wslice_eq 3 x8 _) (brow_eq 3 x9 _)

theorem pool_sum : Read.val_main_v133 (F := Ideal) x0 x1 x3 x4 x6 x7 x8 x9 =
    Spec.pool (Read.val_main_v130 (F := Ideal) x0 x1 x4 x6 x7 x8 x9) (Spec.col x3) :=
  pool_chain _ (zero_bc _) _ x3 (ext2 fun n _ => broadcastInDim_apply _ _ x3 _ (ix1 n) fun a => by
    match a with
    | ⟨0, _⟩ => exact (if_neg (by decide : ¬(200000 : Nat) = 1)).symm) _

theorem readout : Read.val_main_v147 (F := Ideal) x0 x1 x3 x4 x6 x7 x8 x9 x10 x11 x12 x13 x14 x15 =
    Spec.mlp (Read.val_main_v133 (F := Ideal) x0 x1 x3 x4 x6 x7 x8 x9) x10 (Spec.row x11) x12 (Spec.row x13) x14 (Spec.row x15) :=
  mlp_chain (row_eq x11 _ _) (zero_bc _) (row_eq x13 _ _) (zero_bc _) (row_eq x15 _ _)

theorem ref_result (m : (ℓ : Loc nD τ sig) → Buf (Elt Ideal) ℓ) (c : Dev nD) :
    Value.res_main_v147 m c = Spec.result (aggR (m ((c.tc : Thread nD τ).loc main_arg1)))
      (embR (m ((c.tc : Thread nD τ).loc main_arg0)) (m ((c.tc : Thread nD τ).loc main_arg4)))
      (m ((c.tc : Thread nD τ).loc main_arg3)) (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11)) (m ((c.tc : Thread nD τ).loc main_arg12))
      (m ((c.tc : Thread nD τ).loc main_arg13)) (m ((c.tc : Thread nD τ).loc main_arg14)) (m ((c.tc : Thread nD τ).loc main_arg15)) := by
  rw [Read.val_main_v147_eq, readout, pool_sum, layer3, layer2, layer1, layer0]
  rfl

end Cert.ReferenceIdeal.HandValue

end
-- ==== Proof.lean ====
import proofs.«423572_j60988535604051_1_alg».proof.Defs
import proofs.«423572_j60988535604051_1_alg».proof.Proof.Gen.Kernel
import proofs.«423572_j60988535604051_1_alg».proof.Proof.Gen.KernelIdeal
import proofs.«423572_j60988535604051_1_alg».proof.Proof.Gen.ReferenceIdeal
import proofs.«423572_j60988535604051_1_alg».proof.Proof.Gen.Pre_finite_inputs
import proofs.«423572_j60988535604051_1_alg».proof.Proof.KRunAll
import proofs.«423572_j60988535604051_1_alg».proof.Proof.KernelValue
import proofs.«423572_j60988535604051_1_alg».proof.Proof.RefValue
import Idealize.ShloMosaic.Adequacy
import Idealize.ShloMosaic.Init

noncomputable section

namespace Cert.Proof

open Idealize.ShloMosaic Idealize.ShloMosaic.TcCoe Idealize.SL.Sem

theorem agg_same (x1 : Cert.KernelIdeal.S2x3200000.Idx → BitVec 32) : Cert.KernelIdeal.HandValue.aggK x1 = Cert.ReferenceIdeal.HandValue.aggR x1 := rfl

theorem emb_same (x0 : Cert.KernelIdeal.S200000x1.Idx → BitVec 32) (x4 : Cert.KernelIdeal.S28x64.Idx → EReal) :
    Cert.KernelIdeal.HandValue.embK x0 x4 = Cert.ReferenceIdeal.HandValue.embR x0 x4 := rfl

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.Spec.result (Cert.KernelIdeal.HandValue.aggK (m ((c.tc : Thread Cert.KernelIdeal.nD Cert.KernelIdeal.τ).loc Cert.KernelIdeal.main_arg1))) (Cert.KernelIdeal.HandValue.embK (m ((c.tc : Thread Cert.KernelIdeal.nD Cert.KernelIdeal.τ).loc Cert.KernelIdeal.main_arg0)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c =>
      ⟨(h c _ (Cert.KernelIdeal.Hand.mem_uc Cert.KernelIdeal.main_v100 (by decide))).trans (Cert.KernelIdeal.HandValue.kernel_result m c),
        Cert.KernelIdeal.Hand.args_kept m c _ (h c)⟩) (Cert.KernelIdeal.Hand.run_all m ρ)
  · refine (θ_run Cert.ReferenceIdeal.defs _ _).mono (fun _ h c => ⟨?_, (h c).2⟩) (Cert.ReferenceIdeal.Value.run (F := Ideal) m' ρ')
    obtain ⟨h0, h1, h2, h3, h4, h5, h6, h7, h8, h9, h10, h11, h12, h13, h14, h15⟩ := hagree c
    rw [(h c).1, Cert.ReferenceIdeal.HandValue.ref_result m' c, h0, h1, h3, h4, h6, h7, h8, h9, h10, h11, h12, h13, h14, h15, ← agg_same, ← emb_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
